-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S2048x512 .f32 .bf16
  ∧ IdealRules.truncf_extf.Statement Cert.KernelIdeal.S512x256 .f32 .bf16
  ∧ IdealRules.truncf_extf.Statement Cert.KernelIdeal.S2048x1024 .f32 .bf16
  ∧ IdealRules.truncf_extf.Statement Cert.KernelIdeal.S1024x256 .f32 .bf16
  ∧ IdealRules.truncf_extf.Statement Cert.KernelIdeal.S2048x256 .f32 .bf16
  ∧ IdealRules.truncf_extf.Statement Cert.KernelIdeal.S256x128 .f32 .bf16
  ∧ IdealRules.truncf_extf.Statement Cert.KernelIdeal.S2048x512 .f32 .bf16
  ∧ IdealRules.truncf_extf.Statement Cert.KernelIdeal.S512x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S524288 : Shape := ⟨1, ![524288]⟩
abbrev S8192x64 : Shape := ⟨2, ![8192, 64]⟩
abbrev S512x256 : Shape := ⟨2, ![512, 256]⟩
abbrev S256x64 : Shape := ⟨2, ![256, 64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S524288 : S_.BroadcastsInDim S524288 (![] : Fin 0 → Fin S524288.rank)
  reducesTo_S524288_S_d0 : S524288.ReducesTo [0] S_
  bcast_S_S8192x64 : S_.BroadcastsInDim S8192x64 (![] : Fin 0 → Fin S8192x64.rank)
  reducesTo_S8192x64_S_d0_1 : S8192x64.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_

variable [Facts]

def fn_part2 {F : FTy → Type} [FloatOps F] (main_arg2 : IVec S524288 32) (main_v28 : IVec S_ 1) (main_v33 : IVec S524288 1) : IVec S_ 1 :=
  let main_c_12 : IVec S_ 1 := constantI S_ 1 1#1
  let main_v34 : IVec S_ 1 := (fun x v => Host.reduce IntOp.andi x v reducesTo_S524288_S_d0 h_S_) main_v33 main_c_12
  let main_v35 : IVec S_ 1 := andi main_v28 main_v34
  let main_c_13 : IVec S_ 32 := constantI S_ 32 0#32
  let main_v36 : IVec S524288 32 := broadcastInDim S524288 ![] bcast_S_S524288 main_c_13
  let main_v37 : IVec S524288 1 := cmpi .sge main_arg2 main_v36
  let main_c_14 : IVec S_ 32 := constantI S_ 32 8192#32
  let main_v38 : IVec S524288 32 := broadcastInDim S524288 ![] bcast_S_S524288 main_c_14
  let main_v39 : IVec S524288 1 := cmpi .slt main_arg2 main_v38
  let main_v40 : IVec S524288 1 := andi main_v37 main_v39
  let main_c_15 : IVec S_ 1 := constantI S_ 1 1#1
  let main_v41 : IVec S_ 1 := (fun x v => Host.reduce IntOp.andi x v reducesTo_S524288_S_d0 h_S_) main_v40 main_c_15
  let main_v42 : IVec S_ 1 := andi main_v35 main_v41
  main_v42

def fn_part1 {F : FTy → Type} [FloatOps F] (main_arg1 : IVec S524288 32) (main_arg2 : IVec S524288 32) (main_arg6 : FVec F S256x64 .f32) (main_arg7 : FVec F S256x64 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S256x64 .f32 := Host.absf main_arg7
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_c_10 : IVec S_ 32 := constantI S_ 32 0#32
  let main_v29 : IVec S524288 32 := broadcastInDim S524288 ![] bcast_S_S524288 main_c_10
  let main_v30 : IVec S524288 1 := cmpi .sge main_arg1 main_v29
  let main_c_11 : IVec S_ 32 := constantI S_ 32 8192#32
  let main_v31 : IVec S524288 32 := broadcastInDim S524288 ![] bcast_S_S524288 main_c_11
  let main_v32 : IVec S524288 1 := cmpi .slt main_arg1 main_v31
  let main_v33 : IVec S524288 1 := andi main_v30 main_v32
  fn_part2 (F := F) main_arg2 main_v28 main_v33

def fn {F : FTy → Type} [FloatOps F] (main_arg0 : FVec F S8192x512 .f32) (main_arg1 : IVec S524288 32) (main_arg2 : IVec S524288 32) (main_arg3 : FVec F S524288 .f32) (main_arg4 : FVec F S8192x64 .f32) (main_arg5 : FVec F S512x256 .f32) (main_arg6 : FVec F S256x64 .f32) (main_arg7 : FVec F S256x64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S524288 .f32 := Host.absf main_arg3
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  let main_v9 : FVec F S8192x64 .f32 := Host.absf main_arg4
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S512x256 .f32 := Host.absf main_arg5
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg1 main_arg2 main_arg6 main_arg7 main_v13 main_v16
-- ==== Kernel.lean ====
abbrev S8192x512 : Shape := ⟨2, ![8192, 512]⟩
abbrev S524288 : Shape := ⟨1, ![524288]⟩
abbrev S8192x64 : Shape := ⟨2, ![8192, 64]⟩
abbrev S512x256 : Shape := ⟨2, ![512, 256]⟩
abbrev S256x64 : Shape := ⟨2, ![256, 64]⟩
abbrev S_ : Shape := ⟨0, ![]⟩
abbrev S67108864 : Shape := ⟨1, ![67108864]⟩
abbrev S524288x1 : Shape := ⟨2, ![524288, 1]⟩
abbrev S8192x8192 : Shape := ⟨2, ![8192, 8192]⟩
abbrev S256x128 : Shape := ⟨2, ![256, 128]⟩
abbrev S8192x256 : Shape := ⟨2, ![8192, 256]⟩
abbrev S2048x512 : Shape := ⟨2, ![2048, 512]⟩
abbrev S2048x256 : Shape := ⟨2, ![2048, 256]⟩
abbrev S8192x128 : Shape := ⟨2, ![8192, 128]⟩
abbrev S2048x1024 : Shape := ⟨2, ![2048, 1024]⟩
abbrev S1024x256 : Shape := ⟨2, ![1024, 256]⟩
abbrev S2048x128 : Shape := ⟨2, ![2048, 128]⟩
abbrev S512x128 : Shape := ⟨2, ![512, 128]⟩
abbrev S2048x64 : Shape := ⟨2, ![2048, 64]⟩
abbrev S2048x2048 : Shape := ⟨2, ![2048, 2048]⟩

abbrev nBuf : Space → Nat
  | .hbm => 33
  | .vmem => 33
  | .smem => 0
  | _ => 0

abbrev bufTy : (tb : Table) → Fin (tcTables nBuf tb) → BufTy
  | .hbm, ⟨0, _⟩ => ⟨S8192x512, .f32⟩
  | .hbm, ⟨1, _⟩ => ⟨S524288, .i32⟩
  | .hbm, ⟨2, _⟩ => ⟨S524288, .i32⟩
  | .hbm, ⟨3, _⟩ => ⟨S524288, .f32⟩
  | .hbm, ⟨4, _⟩ => ⟨S8192x64, .f32⟩
  | .hbm, ⟨5, _⟩ => ⟨S512x256, .f32⟩
  | .hbm, ⟨6, _⟩ => ⟨S256x64, .f32⟩
  | .hbm, ⟨7, _⟩ => ⟨S256x64, .f32⟩
  | .hbm, ⟨8, _⟩ => ⟨S_, .i32⟩
  | .hbm, ⟨9, _⟩ => ⟨S524288, .i32⟩
  | .hbm, ⟨10, _⟩ => ⟨S524288, .i32⟩
  | .hbm, ⟨11, _⟩ => ⟨S524288, .i32⟩
  | .hbm, ⟨12, _⟩ => ⟨S_, .f32⟩
  | .hbm, ⟨13, _⟩ => ⟨S67108864, .f32⟩
  | .hbm, ⟨14, _⟩ => ⟨S_, .i32⟩
  | .hbm, ⟨15, _⟩ => ⟨S524288, .i32⟩
  | .hbm, ⟨16, _⟩ => ⟨S524288, .i1⟩
  | .hbm, ⟨17, _⟩ => ⟨S_, .i32⟩
  | .hbm, ⟨18, _⟩ => ⟨S524288, .i32⟩
  | .hbm, ⟨19, _⟩ => ⟨S524288, .i32⟩
  | .hbm, ⟨20, _⟩ => ⟨S524288, .i32⟩
  | .hbm, ⟨21, _⟩ => ⟨S524288x1, .i32⟩
  | .hbm, ⟨22, _⟩ => ⟨S67108864, .f32⟩
  | .hbm, ⟨23, _⟩ => ⟨S8192x8192, .f32⟩
  | .hbm, ⟨24, _⟩ => ⟨S256x128, .f32⟩
  | .hbm, ⟨25, _⟩ => ⟨S8192x256, .f32⟩
  | .hbm, ⟨26, _⟩ => ⟨S8192x128, .f32⟩
  | .hbm, ⟨27, _⟩ => ⟨S8192x64, .f32⟩
  | .hbm, ⟨28, _⟩ => ⟨S8192x64, .bf16⟩
  | .hbm, ⟨29, _⟩ => ⟨S8192x64, .f32⟩
  | .hbm, ⟨30, _⟩ => ⟨S8192x64, .f32⟩
  | .hbm, ⟨31, _⟩ => ⟨S8192x64, .bf16⟩
  | .hbm, ⟨32, _⟩ => ⟨S8192x8192, .f32⟩
  | .local _ .vmem, ⟨0, _⟩ => ⟨S2048x512, .f32⟩
  | .local _ .vmem, ⟨1, _⟩ => ⟨S2048x512, .f32⟩
  | .local _ .vmem, ⟨2, _⟩ => ⟨S512x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x1024, .f32⟩
  | .local _ .vmem, ⟨7, _⟩ => ⟨S2048x1024, .f32⟩
  | .local _ .vmem, ⟨8, _⟩ => ⟨S1024x256, .f32⟩
  | .local _ .vmem, ⟨9, _⟩ => ⟨S1024x256, .f32⟩
  | .local _ .vmem, ⟨10, _⟩ => ⟨S256x128, .f32⟩
  | .local _ .vmem, ⟨11, _⟩ => ⟨S2048x128, .f32⟩
  | .local _ .vmem, ⟨12, _⟩ => ⟨S2048x128, .f32⟩
  | .local _ .vmem, ⟨13, _⟩ => ⟨S2048x256, .f32⟩
  | .local _ .vmem, ⟨14, _⟩ => ⟨S2048x512, .f32⟩
  | .local _ .vmem, ⟨15, _⟩ => ⟨S2048x512, .f32⟩
  | .local _ .vmem, ⟨16, _⟩ => ⟨S512x128, .f32⟩
  | .local _ .vmem, ⟨17, _⟩ => ⟨S512x128, .f32⟩
  | .local _ .vmem, ⟨18, _⟩ => ⟨S2048x64, .f32⟩
  | .local _ .vmem, ⟨19, _⟩ => ⟨S2048x64, .f32⟩
  | .local _ .vmem, ⟨20, _⟩ => ⟨S2048x64, .f32⟩
  | .local _ .vmem, ⟨21, _⟩ => ⟨S2048x64, .f32⟩
  | .local _ .vmem, ⟨22, _⟩ => ⟨S2048x128, .f32⟩
  | .local _ .vmem, ⟨23, _⟩ => ⟨S2048x64, .bf16⟩
  | .local _ .vmem, ⟨24, _⟩ => ⟨S2048x64, .bf16⟩
  | .local _ .vmem, ⟨25, _⟩ => ⟨S2048x64, .bf16⟩
  | .local _ .vmem, ⟨26, _⟩ => ⟨S2048x64, .bf16⟩
  | .local _ .vmem, ⟨27, _⟩ => ⟨S2048x64, .bf16⟩
  | .local _ .vmem, ⟨28, _⟩ => ⟨S2048x64, .bf16⟩
  | .local _ .vmem, ⟨29, _⟩ => ⟨S2048x64, .bf16⟩
  | .local _ .vmem, ⟨30, _⟩ => ⟨S2048x64, .bf16⟩
  | .local _ .vmem, ⟨31, _⟩ => ⟨S2048x2048, .f32⟩
  | .local _ .vmem, ⟨32, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v23 : BitVec 1 := Scalar.cmpi .eq arg2 c0_i32_10
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v25 : BitVec 1 := Scalar.cmpi .eq arg1 c7_i32
  let v26 : BitVec 32 := Scalar.extui v25
  let c0_i32_10 : BitVec 32 := 0#32
  let v27 : BitVec 1 := Scalar.cmpi .ne v26 c0_i32_10
  v27

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 16], ![false, false]⟩

def k2_cond2 (i : grid2.Coords) : BitVec 1 :=
  let arg1 : BitVec 32 := BitVec.ofNat 32 (i 1).val
  let c15_i32 : BitVec 32 := 15#32
  let v25 : BitVec 1 := Scalar.cmpi .eq arg1 c15_i32
  let v26 : BitVec 32 := Scalar.extui v25
  let c0_i32_10 : BitVec 32 := 0#32
  let v27 : BitVec 1 := Scalar.cmpi .ne v26 c0_i32_10
  v27

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S2048x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S2048x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

class Facts₀ : Prop where
  bcast_S_S524288 : S_.BroadcastsInDim S524288 (![] : Fin 0 → Fin S524288.rank)
  bcast_S_S67108864 : S_.BroadcastsInDim S67108864 (![] : Fin 0 → Fin S67108864.rank)
  bcast_S524288_S524288x1_0 : S524288.BroadcastsInDim S524288x1 (![0] : Fin 1 → Fin S524288x1.rank)
  shapeCasts_S67108864_S8192x8192 : S67108864.ShapeCasts S8192x8192
  concatenates_S256x64_S256x64_S256x128_d1 : Shape.Concatenates [S256x64, S256x64] S256x128 1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x512_S2048x512_0_0 : ∀ a, (![0, 0] : Fin 2 → Nat) a + S2048x512.size a ≤ S2048x512.size a
  h_S2048x512 : 0 < S2048x512.numel
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048x512_S2048x512 : S2048x512.ShapeCasts S2048x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S2048x128_o0_0_S2048x64 : S2048x128.Slices ![0, 0] S2048x64
  slices_S2048x128_o0_64_S2048x64 : S2048x128.Slices ![0, 64] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  scatter_S67108864_S524288x1_S524288_n_0_0_1_wf : ScatterDims.WF S67108864 S524288x1 S524288 [] [0] [0] 1
  dot_S2048x512_S512x256_S2048x256_1_0_0_1_n_n_wf : DotDims.WF S2048x512 S512x256 S2048x256 [1] [0] [0] [1] [] []
  dot_S2048x1024_S1024x256_S2048x256_1_0_0_1_n_n_wf : DotDims.WF S2048x1024 S1024x256 S2048x256 [1] [0] [0] [1] [] []
  dot_S2048x256_S256x128_S2048x128_1_0_0_1_n_n_wf : DotDims.WF S2048x256 S256x128 S2048x128 [1] [0] [0] [1] [] []
  dot_S2048x512_S512x128_S2048x128_1_0_0_1_n_n_wf : DotDims.WF S2048x512 S512x128 S2048x128 [1] [0] [0] [1] [] []
  dot_S2048x64_S2048x64_S2048x2048_1_1_0_0_n_n_wf : DotDims.WF S2048x64 S2048x64 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .f32 = 32 ∨ (Rect.block (s := S8192x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x8192.size a
  hwx2_0 : ∀ i : grid2.Coords, EltTy.bits .f32 = 32 ∨ (Rect.block (s := S8192x8192) S2048x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S8192x128.size a
  hwx2_1 : ∀ i : grid2.Coords, EltTy.bits .f32 = 32 ∨ (Rect.block (s := S8192x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S8192x64.size a
  hwx2_2 : ∀ i : grid2.Coords, EltTy.bits .f32 = 32 ∨ (Rect.block (s := S8192x64) S2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S8192x64.size a
  hwx2_3 : ∀ i : grid2.Coords, EltTy.bits .f32 = 32 ∨ (Rect.block (s := S8192x64) S2048x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S8192x64.size a
  hwx3_0 : ∀ i : grid3.Coords, EltTy.bits .bf16 = 32 ∨ (Rect.block (s := S8192x64) S2048x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S8192x64.size a
  hwx3_1 : ∀ i : grid3.Coords, EltTy.bits .bf16 = 32 ∨ (Rect.block (s := S8192x64) S2048x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S8192x64.size a
  hwx3_2 : ∀ i : grid3.Coords, EltTy.bits .bf16 = 32 ∨ (Rect.block (s := S8192x64) S2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x64.size a ≤ S8192x64.size a
  hwx3_3 : ∀ i : grid3.Coords, EltTy.bits .bf16 = 32 ∨ (Rect.block (s := S8192x64) S2048x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2048x2048.size a ≤ S8192x8192.size a
  hwx3_4 : ∀ i : grid3.Coords, EltTy.bits .f32 = 32 ∨ (Rect.block (s := S8192x8192) S2048x2048.size (cc3_transform_4 i) (hinb3_4 i)).WholeWords (EltTy.packing .f32)

variable [Facts₀]

def scatter_S67108864_S524288x1_S524288_n_0_0_1 : ScatterDims S67108864 S524288x1 S524288 where
  updateWindowDims := []
  insertedWindowDims := [0]
  scatterDimsToOperandDims := [0]
  indexVectorDim := 1
  wf := scatter_S67108864_S524288x1_S524288_n_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x64_S2048x64_S2048x2048_1_1_0_0_n_n : DotDims S2048x64 S2048x64 S2048x2048 where
  lhsContracting := [1]
  rhsContracting := [1]
  lhsNonContracting := [0]
  rhsNonContracting := [0]
  lhsBatch := []
  rhsBatch := []
  wf := dot_S2048x64_S2048x64_S2048x2048_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S512x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v11) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v11) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S2048x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v16) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v19) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v19) S2048x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v20) S2048x2048.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S8192x512 : Shape := ⟨2, ![8192, 512]⟩
abbrev S524288 : Shape := ⟨1, ![524288]⟩
abbrev S8192x64 : Shape := ⟨2, ![8192, 64]⟩
abbrev S512x256 : Shape := ⟨2, ![512, 256]⟩
abbrev S256x64 : Shape := ⟨2, ![256, 64]⟩
abbrev S8192x256 : Shape := ⟨2, ![8192, 256]⟩
abbrev S_ : Shape := ⟨0, ![]⟩
abbrev S524288x1 : Shape := ⟨2, ![524288, 1]⟩
abbrev S524288x256 : Shape := ⟨2, ![524288, 256]⟩
abbrev S524288x64 : Shape := ⟨2, ![524288, 64]⟩
abbrev S64x8192 : Shape := ⟨2, ![64, 8192]⟩
abbrev S8192x8192 : Shape := ⟨2, ![8192, 8192]⟩

abbrev nBuf : Space → Nat
  | .hbm => 67
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S524288, .i32⟩
  | .hbm, ⟨2, _⟩ => ⟨S524288, .i32⟩
  | .hbm, ⟨3, _⟩ => ⟨S524288, .f32⟩
  | .hbm, ⟨4, _⟩ => ⟨S8192x64, .f32⟩
  | .hbm, ⟨5, _⟩ => ⟨S512x256, .f32⟩
  | .hbm, ⟨6, _⟩ => ⟨S256x64, .f32⟩
  | .hbm, ⟨7, _⟩ => ⟨S256x64, .f32⟩
  | .hbm, ⟨8, _⟩ => ⟨S8192x256, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S524288x1, .i32⟩
  | .hbm, ⟨17, _⟩ => ⟨S524288x256, .f32⟩
  | .hbm, ⟨18, _⟩ => ⟨S524288x1, .f32⟩
  | .hbm, ⟨19, _⟩ => ⟨S524288x256, .f32⟩
  | .hbm, ⟨20, _⟩ => ⟨S524288x256, .f32⟩
  | .hbm, ⟨21, _⟩ => ⟨S_, .f32⟩
  | .hbm, ⟨22, _⟩ => ⟨S8192x256, .f32⟩
  | .hbm, ⟨23, _⟩ => ⟨S524288x1, .i32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S8192x64, .f32⟩
  | .hbm, ⟨29, _⟩ => ⟨S_, .i32⟩
  | .hbm, ⟨30, _⟩ => ⟨S524288, .i32⟩
  | .hbm, ⟨31, _⟩ => ⟨S524288, .i1⟩
  | .hbm, ⟨32, _⟩ => ⟨S_, .i32⟩
  | .hbm, ⟨33, _⟩ => ⟨S524288, .i32⟩
  | .hbm, ⟨34, _⟩ => ⟨S524288, .i32⟩
  | .hbm, ⟨35, _⟩ => ⟨S524288, .i32⟩
  | .hbm, ⟨36, _⟩ => ⟨S524288x1, .i32⟩
  | .hbm, ⟨37, _⟩ => ⟨S524288x64, .f32⟩
  | .hbm, ⟨38, _⟩ => ⟨S524288x1, .f32⟩
  | .hbm, ⟨39, _⟩ => ⟨S524288x64, .f32⟩
  | .hbm, ⟨40, _⟩ => ⟨S524288x64, .f32⟩
  | .hbm, ⟨41, _⟩ => ⟨S_, .f32⟩
  | .hbm, ⟨42, _⟩ => ⟨S8192x64, .f32⟩
  | .hbm, ⟨43, _⟩ => ⟨S524288x1, .i32⟩
  | .hbm, ⟨44, _⟩ => ⟨S8192x64, .f32⟩
  | .hbm, ⟨45, _⟩ => ⟨S8192x64, .f32⟩
  | .hbm, ⟨46, _⟩ => ⟨S_, .i32⟩
  | .hbm, ⟨47, _⟩ => ⟨S524288, .i32⟩
  | .hbm, ⟨48, _⟩ => ⟨S524288, .i1⟩
  | .hbm, ⟨49, _⟩ => ⟨S_, .i32⟩
  | .hbm, ⟨50, _⟩ => ⟨S524288, .i32⟩
  | .hbm, ⟨51, _⟩ => ⟨S524288, .i32⟩
  | .hbm, ⟨52, _⟩ => ⟨S524288, .i32⟩
  | .hbm, ⟨53, _⟩ => ⟨S524288x1, .i32⟩
  | .hbm, ⟨54, _⟩ => ⟨S524288x64, .f32⟩
  | .hbm, ⟨55, _⟩ => ⟨S524288x1, .f32⟩
  | .hbm, ⟨56, _⟩ => ⟨S524288x64, .f32⟩
  | .hbm, ⟨57, _⟩ => ⟨S524288x64, .f32⟩
  | .hbm, ⟨58, _⟩ => ⟨S_, .f32⟩
  | .hbm, ⟨59, _⟩ => ⟨S8192x64, .f32⟩
  | .hbm, ⟨60, _⟩ => ⟨S524288x1, .i32⟩
  | .hbm, ⟨61, _⟩ => ⟨S8192x64, .f32⟩
  | .hbm, ⟨62, _⟩ => ⟨S8192x64, .f32⟩
  | .hbm, ⟨63, _⟩ => ⟨S8192x64, .f32⟩
  | .hbm, ⟨64, _⟩ => ⟨S8192x64, .f32⟩
  | .hbm, ⟨65, _⟩ => ⟨S64x8192, .f32⟩
  | .hbm, ⟨66, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x256_0_1 : S524288x1.BroadcastsInDim S524288x256 (![0, 1] : Fin 2 → Fin S524288x256.rank)
  bcast_S_S8192x256 : S_.BroadcastsInDim S8192x256 (![] : Fin 0 → Fin S8192x256.rank)
  bcast_S524288x1_S524288x64_0_1 : S524288x1.BroadcastsInDim S524288x64 (![0, 1] : Fin 2 → Fin S524288x64.rank)
  bcast_S_S8192x64 : S_.BroadcastsInDim S8192x64 (![] : Fin 0 → Fin S8192x64.rank)
  transposes_S8192x64_S64x8192_1_0 : S8192x64.Transposes [1, 0] S64x8192
  dot_S8192x512_S512x256_S8192x256_1_0_0_1_n_n_wf : DotDims.WF S8192x512 S512x256 S8192x256 [1] [0] [0] [1] [] []
  gather_S8192x256_S524288x1_S524288x256_1_0_n_n_0_1_1256_wf : GatherDims.WF S8192x256 S524288x1 S524288x256 [1] [0] [] [0] [] 1 ![1, 256]
  scatter_S8192x256_S524288x1_S524288x256_1_0_0_1_wf : ScatterDims.WF S8192x256 S524288x1 S524288x256 [1] [0] [0] 1
  dot_S8192x256_S256x64_S8192x64_1_0_0_1_n_n_wf : DotDims.WF S8192x256 S256x64 S8192x64 [1] [0] [0] [1] [] []
  gather_S8192x64_S524288x1_S524288x64_1_0_n_n_0_1_164_wf : GatherDims.WF S8192x64 S524288x1 S524288x64 [1] [0] [] [0] [] 1 ![1, 64]
  scatter_S8192x64_S524288x1_S524288x64_1_0_0_1_wf : ScatterDims.WF S8192x64 S524288x1 S524288x64 [1] [0] [0] 1
  dot_S8192x64_S64x8192_S8192x8192_1_0_0_1_n_n_wf : DotDims.WF S8192x64 S64x8192 S8192x8192 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S524288x1_S524288x256_1_0_n_n_0_1_1256 : GatherDims S8192x256 S524288x1 S524288x256 where
  offsetDims := [1]
  collapsedSliceDims := [0]
  operandBatchingDims := []
  startIndicesBatchingDims := []
  startIndexMap := [0]
  indexVectorDim := 1
  sliceSizes := ![1, 256]
  wf := gather_S8192x256_S524288x1_S524288x256_1_0_n_n_0_1_1256_wf
def scatter_S8192x256_S524288x1_S524288x256_1_0_0_1 : ScatterDims S8192x256 S524288x1 S524288x256 where
  updateWindowDims := [1]
  insertedWindowDims := [0]
  scatterDimsToOperandDims := [0]
  indexVectorDim := 1
  wf := scatter_S8192x256_S524288x1_S524288x256_1_0_0_1_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def gather_S8192x64_S524288x1_S524288x64_1_0_n_n_0_1_164 : GatherDims S8192x64 S524288x1 S524288x64 where
  offsetDims := [1]
  collapsedSliceDims := [0]
  operandBatchingDims := []
  startIndicesBatchingDims := []
  startIndexMap := [0]
  indexVectorDim := 1
  sliceSizes := ![1, 64]
  wf := gather_S8192x64_S524288x1_S524288x64_1_0_n_n_0_1_164_wf
def scatter_S8192x64_S524288x1_S524288x64_1_0_0_1 : ScatterDims S8192x64 S524288x1 S524288x64 where
  updateWindowDims := [1]
  insertedWindowDims := [0]
  scatterDimsToOperandDims := [0]
  indexVectorDim := 1
  wf := scatter_S8192x64_S524288x1_S524288x64_1_0_0_1_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.LibRun.lean ====
import Idealize.ShloMosaic.Lib.Pipeline.FrameBody
import Idealize.ShloMosaic.Lib.Pipeline.RegionsLoop
import Idealize.ShloMosaic.Lib.Pipeline.FrameSuffix
import Idealize.ShloMosaic.Lib.Tactic
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Λ₀ : Idealize.SL.Sem.Labels} {P : Type} [Fintype P]

local notation "𝕄" => MT nD τ sig Unit Val ℕ (UR sig nD τ) ℕ

/-- A region changes the arrays of its output windows only: an input window's array is never written back. -/
theorem reg_keep (cfg : Pipeline.Cfg sig Λ₀) {c : Dev nD} (d : Pipeline.Dat τ Val Unit ℕ (UR sig nD τ) ℕ cfg c)
    (hinj : Function.Injective (Pipeline.arrRef cfg.spec)) (V : Valuation τ sig Val)
    (hA : ∀ w, d.A w = V (Proc.devRef .tc (Pipeline.arrRef cfg.spec w)))
    (b : Ref sig .tc) (hb : ∀ w, Pipeline.arrRef cfg.spec w = b → (cfg.win w).isOut = false) :
    Pipeline.withArrays cfg.spec c V (fun w => d.arrAt w cfg.N) (Proc.devRef .tc b) = V (Proc.devRef .tc b) := by
  by_cases h : ∃ w, Pipeline.arrRef cfg.spec w = b
  · obtain ⟨w, rfl⟩ := h
    rw [Pipeline.withArrays_arr _ hinj, d.arrAt_in w (hb w rfl), hA]
  · exact Pipeline.withArrays_of_ne _ c V _ b fun w e => h ⟨w, e⟩

/-- Carried by every segment beside the buffers: some state of the generator register and a core with no debt. -/
abbrev R (c : Dev nD) : sProp 𝕄 := iprop((∃ r, prngReg c r) ∗ ∃ W, owes (c : Thread nD τ) (0 : CellTallies nD τ sig Unit) W)

/-- The thread state at a boundary: every unscoped buffer whole at `W`, beside `R`. -/
abbrev St (W : Valuation τ sig Val) (c : Dev nD) : sProp 𝕄 := iprop(StableHlo.held (c : Thread nD τ) (Pipeline.ucRefs τ sig) W ∗ R c)

/-- A kernel region between the boundary contents `Wa` and `Wb`: its arrays are dealt out of the unscoped buffers at `Wa` and gathered back into them at `Wb`; the generator register passes through the region's invariant; nothing is owed. -/
def regOf (cfgs : P → Pipeline.Cfg sig Λ₀)
    (pdats : (p : P) → (c : Dev nD) → Pipeline.Dat τ Val Unit ℕ (UR sig nD τ) ℕ (Pipeline.pin (fun p => (cfgs p).toPCfg) (fun p => (cfgs p).toPCfg_adm) p) c)
    (defs₀ : Defs nD τ sig Val Λ₀) (𝒱₀ : Variants) (L : GSem nD τ sig → Finset Unit) (lv : GSem nD τ sig → Unit → ℕ)
    (p : P) (win : Pipeline.WinFacts₀ (cfgs p).spec) (block_pos : ∀ w : Fin (cfgs p).W, 0 < ((cfgs p).spec w).block.numel)
    (stage_whole : ∀ (w : Fin (cfgs p).W) (s : Fin ((cfgs p).spec w).nbuf), (((cfgs p).spec w).stage s).IsWhole)
    (Wa Wb : Dev nD → Valuation τ sig Val)
    (hbody : ∀ c, Pipeline.BodyObligation (pdats p c) defs₀ 𝒱₀ () Set.univ)
    (howed : ∀ c t, (pdats p c).owed t = 0) (hrec : ∀ c x, x ∈ (pdats p c).recorded 0)
    (hin : ∀ c, (Pipeline.ΦA (cfgs p).spec c : sProp 𝕄) ⊢ (pdats p c).Φ 0)
    (hout : ∀ c, (pdats p c).Φ (Fin.last _) ⊢ (Pipeline.ΦA (cfgs p).spec c : sProp 𝕄))
    (hsplit : ∀ c, (unscopedBufs c (fun b => Wa c b) : sProp 𝕄)
      ⊢ iprop((pdats p c).arrays ((pdats p c).arrAt · 0) ∗ Pipeline.unscopedRest (cfgs p).spec c fun b => Wa c b))
    (hjoin : ∀ c, iprop((pdats p c).arrays ((pdats p c).arrAt · (cfgs p).N) ∗ Pipeline.unscopedRest (cfgs p).spec c fun b => Wa c b)
      ⊢ (unscopedBufs c (fun b => Wb c b) : sProp 𝕄)) :
    Pipeline.RegionSeg (fun p => (cfgs p).toPCfg) (fun p => (cfgs p).toPCfg_adm) pdats () defs₀ 𝒱₀ L lv p where
  win := win
  block_pos := block_pos
  stage_whole := stage_whole
  K := PEmpty
  osem k := k.elim
  ho := Pipeline.OwnSemFacts.none _
  hbody c := (hbody c).loose
  hwaits := Pipeline.hwaits_of_owed_zero _ _ _ _ L lv p howed
  pre c := St (Wa c) c
  post c := St (Wb c) c
  X c := iprop(∃ r, prngReg c r)
  Y c := iprop(∃ r, prngReg c r)
  Z c := Pipeline.unscopedRest (Ix := Unit) (Name := ℕ) (U := UR sig nD τ) (Lvl := ℕ) (cfgs p).spec c fun b => Wa c b
  hentry c := by
    unfold Pipeline.Dat.owesAt; rw [Pipeline.ownSems0_none, howed c 0]
    have hs := hsplit c
    rw [Pipeline.unscopedBufs_held] at hs
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.owesWithin
      icases HO with ⟨%W, HO⟩; iexists W; isplitr; · ipureintro; exact fun _ _ => Or.inl (hrec c _)
      iexact HO
    isplitl [Hp]; · iexact Hp
    iexact Hrest
  hin c := (show _ ⊢ (Pipeline.ΦA (cfgs p).spec c : sProp 𝕄) from by
    unfold Pipeline.ΦA
    iintro ⟨Hp, -, Hr⟩
    isplitl [Hr]; · iexact Hr
    iexact Hp).trans (hin c)
  hout c := (hout c).trans (show (Pipeline.ΦA (cfgs p).spec c : sProp 𝕄) ⊢ _ from by
    rw [Pipeline.ownSems0_none]; unfold Pipeline.ΦA
    iintro ⟨Hr, Hp⟩
    isplitl [Hp]; · iexact Hp
    isplitr; · iempintro
    iexact Hr)
  hexit c := by
    unfold Pipeline.Dat.owesAt; rw [howed c (Fin.last _)]
    have hj := hjoin c
    rw [Pipeline.unscopedBufs_held] at hj
    iintro ⟨Ha, HO, HY, Hrest⟩
    imodintro
    isplitl [Ha Hrest]
    · iapply hj; isplitl [Ha] <;> iassumption
    isplitl [HY]; · iexact HY
    unfold Pipeline.owesWithin
    icases HO with ⟨%W, -, HO⟩; iexists W; iexact HO

/-- The same for a region no two of whose windows share an array: entered at `Wa`, left with its arrays at what the write-backs leave and every other buffer as at `Wa`. -/
def regKit (cfgs : P → Pipeline.Cfg sig Λ₀)
    (pdats : (p : P) → (c : Dev nD) → Pipeline.Dat τ Val Unit ℕ (UR sig nD τ) ℕ (Pipeline.pin (fun p => (cfgs p).toPCfg) (fun p => (cfgs p).toPCfg_adm) p) c)
    (defs₀ : Defs nD τ sig Val Λ₀) (𝒱₀ : Variants) (L : GSem nD τ sig → Finset Unit) (lv : GSem nD τ sig → Unit → ℕ)
    (p : P) (kit : Pipeline.LaunchFacts (nD := nD) (τ := τ) cfgs p) (Wa : Dev nD → Valuation τ sig Val)
    (hbody : ∀ c, Pipeline.BodyObligation (pdats p c) defs₀ 𝒱₀ () Set.univ)
    (howed : ∀ c t, (pdats p c).owed t = 0) (hrec : ∀ c x, x ∈ (pdats p c).recorded 0) (hq : ∀ c w, (pdats p c).q w = fullShare)
    (hA : ∀ c w, (pdats p c).A w = Wa c (Pipeline.arrRef (cfgs p).spec w))
    (hin : ∀ c, (Pipeline.ΦA (cfgs p).spec c : sProp 𝕄) ⊢ (pdats p c).Φ 0)
    (hout : ∀ c, (pdats p c).Φ (Fin.last _) ⊢ (Pipeline.ΦA (cfgs p).spec c : sProp 𝕄)) :
    Pipeline.RegionSeg (fun p => (cfgs p).toPCfg) (fun p => (cfgs p).toPCfg_adm) pdats () defs₀ 𝒱₀ L lv p :=
  regOf cfgs pdats defs₀ 𝒱₀ L lv p kit.win.to₀ kit.block_pos kit.stage_whole Wa
    (fun c => Pipeline.withArrays (cfgs p).spec c (Wa c) fun w => (pdats p c).arrAt w (cfgs p).N) hbody howed hrec hin hout
    (fun c => Pipeline.arrays_of_unscopedBufs (p := p) _ _ pdats kit.win kit.arr_whole c
      ((pdats p c).share_full (hq c)) (fun b => Wa c b) (hA c))
    (fun c => by
      have hj := Pipeline.unscopedBufs_of_arrays (p := p) _ _ (Ix := Unit) (Name := ℕ) (U := UR sig nD τ) (Lvl := ℕ)
        kit.win kit.arr_whole c pdats ((pdats p c).share_full (hq c)) (fun b => Wa c b)
        (fun b => Pipeline.withArrays (cfgs p).spec c (Wa c) (fun w => (pdats p c).arrAt w (cfgs p).N) b) _
        (fun w => (Pipeline.withArrays_arr _ kit.win.arr_inj c _ _ w).symm)
        fun b hb => Pipeline.withArrays_of_ne _ c _ _ b fun w e => hb (Finset.mem_image.mpr ⟨w, Finset.mem_univ _, e⟩)
      exact hj)

/-- A chain of segments may end in any state its last one entails. -/
theorem chains_last {pcs : P → Pipeline.PCfg sig Λ₀ Val} {a : (p : P) → (pcs p).Adm}
    {pdats : (p : P) → (c : Dev nD) → Pipeline.Dat τ Val Unit ℕ (UR sig nD τ) ℕ (Pipeline.pin pcs a p) c}
    {defs₀ : Defs nD τ sig Val Λ₀} {𝒱₀ : Variants} {L : GSem nD τ sig → Finset Unit} {lv : GSem nD τ sig → Unit → ℕ}
    {T' T'' : Dev nD → sProp 𝕄} (h : ∀ c, T' c ⊢ T'' c) :
    ∀ {T : Dev nD → sProp 𝕄} {l : List (Pipeline.Seg pcs a pdats () defs₀ 𝒱₀ L lv)}, Pipeline.Seg.Chains T l T' → Pipeline.Seg.Chains T l T''
  | _, [], hl => fun c => (hl c).trans (h c)
  | _, _ :: _, ⟨h₁, hl⟩ => ⟨h₁, chains_last h hl⟩

/-- A stretch of host operations as a segment from the boundary contents `W`. -/
abbrev hseg {pcs : P → Pipeline.PCfg sig Λ₀ Val} {defs₀ : Defs nD τ sig Val Λ₀} {𝒱₀ : Variants} {L : GSem nD τ sig → Finset Unit} {lv : GSem nD τ sig → Unit → ℕ}
    (ops : List (HloOp τ sig Val)) (hsub : ops.Forall fun op => op.bufs ⊆ StableHlo.tcRefs τ sig)
    (hfresh : ops.Forall fun op => op.fresh = ∅) (W : Dev nD → Valuation τ sig Val) :
    Pipeline.HostSeg (Name := ℕ) (U := UR sig nD τ) pcs defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A program that runs as segments chaining from the launch memory's thread state to the one at `Wₙ` terminates with every unscoped buffer at `Wₙ`. -/
theorem run_held [DecidableEq P] [∀ e, Nonempty (Val e)] (cfgs : P → Pipeline.Cfg sig Λ₀)
    (hinj : Function.Injective (Pipeline.cellOf (nD := nD) (τ := τ) cfgs))
    (pdats : (p : P) → (c : Dev nD) → Pipeline.Dat τ Val Unit ℕ (UR sig nD τ) ℕ (Pipeline.pin (fun p => (cfgs p).toPCfg) (fun p => (cfgs p).toPCfg_adm) p) c)
    (defs₀ : Defs nD τ sig Val Λ₀) (𝒱₀ : Variants) (L : GSem nD τ sig → Finset Unit) (lv : GSem nD τ sig → Unit → ℕ)
    (hL : ∀ g : GSem nD τ sig, g.1.2 ≠ .tc → L g = ∅)
    (m : (ℓ : Loc nD τ sig) → Buf Val ℓ) (g : Dev nD → PrngReg)
    (main : Dev nD → Prog (TpuEff nD τ sig Val (Pipeline.Sig Λ₀ P fun p => ((cfgs p).toPCfg (Val := Val)).Adm) .tc) PUnit)
    (segs : List (Pipeline.Seg (fun p => (cfgs p).toPCfg) (fun p => (cfgs p).toPCfg_adm) pdats () defs₀ 𝒱₀ L lv))
    (hmain : ∀ c, main c = Pipeline.Seg.run segs) (hnd : (Pipeline.Seg.pipes segs).Nodup)
    (Wₙ : Dev nD → Valuation τ sig Val)
    (hch : Pipeline.Seg.Chains (fun c => St (fun b => m (c, b)) c) segs fun c => St (Wₙ c) c) :
    θ_run (Pipeline.defs (fun p => (cfgs p).toPCfg) defs₀) (onTc (τ := τ) main) ⟨m, fun _ => 0, g⟩
      (fun r => ∀ c : Dev nD, ∀ b : Ref sig .tc, ¬ (Proc.devRef .tc b : DevRef τ sig).isScoped →
        r.2.mem ((c.tc : Thread nD τ).loc b) = Wₙ c (Proc.devRef .tc b)) :=
  Pipeline.θ_run_regions_kit _ _ pdats () hinj emb₁ defs₀ 𝒱₀ L lv m g main segs
    (fun c Q => by rw [hmain c]) hnd (O₀ := 0) (hL := hL) (G := fun _ => iprop(emp))
    (u₀ := initOf (Pipeline.cells cfgs hinj) (Pipeline.launchToks cfgs hinj))
    (hu₀ := by
      iintro Hu; imodintro
      isplitl [Hu]
      · iapply (show (ownU (initOf (Pipeline.cells cfgs hinj) (Pipeline.launchToks cfgs hinj)) : sProp 𝕄)
            ⊢ BI.own (emb₁ (initOf (Pipeline.cells cfgs hinj) (Pipeline.launchToks cfgs hinj))) from .rfl)
        iexact Hu
      iapply (show (BI.emp : sProp 𝕄) ⊢ bigSep Finset.univ (fun _ : Dev nD => (BI.emp : sProp 𝕄)) from by rw [BI.bigSep_emp_const])
      iempintro)
    (T₀ := fun c => St (fun b => m (c, b)) c)
    (Tₙ := fun c => iprop(StableHlo.held (c : Thread nD τ) (Pipeline.ucRefs τ sig) (Wₙ c) ∗ ∃ r, prngReg c r))
    (hch := chains_last (fun c => by
      iintro ⟨Hh, Hp, HO⟩
      isplitl [Hh Hp]
      · isplitl [Hh] <;> iassumption
      iexact HO) hch)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wₙ c b)
    (hfin := fun c s' => by
      iintro ⟨⟨Hh, -⟩, HSI⟩
      unfold StableHlo.held
      imodintro
      iapply (pointsTo_read_all (Pipeline.ucRefs τ sig) (fun b => (((c : Thread nD τ)).1, b)) (Wₙ c) s')
      isplitl [Hh] <;> iassumption)
    (hQ := fun s h c b hb => h c _ (Finset.mem_filter.mpr ⟨StableHlo.devRef_mem_tcRefs b, hb⟩))

end Cert.Hand

namespace Cert.Hand

open Idealize.ShloMosaic Idealize.ShloMosaic.ValueIdx
open scoped BigOperators

/-- An [M,K] by [K,N] product into the zero splat, at (p, q): the one contracted axis is re-indexed by its coordinate. -/
theorem matmul_ix2 {M K N : ℕ} {φ₁ φ₂ : FTy} (d : DotDims ⟨2, ![M, K]⟩ ⟨2, ![K, N]⟩ ⟨2, ![M, N]⟩) (hd : d = .plain M K N)
    (prec : Option ContractPrecision) (A : FVec Ideal ⟨2, ![M, K]⟩ φ₁) (B : FVec Ideal ⟨2, ![K, N]⟩ φ₂) (p : Fin M) (q : Fin N) :
    FloatOps.matmul d prec A B (constant _ .f32 0x00000000#32) (ix2 p q) = ∑ k : Fin K, A (ix2 p k) * B (ix2 k q) := by
  subst hd
  rw [Ideal.matmul_constant_zero_apply, ← Equiv.sum_comp (contrEquiv1 _ K rfl rfl).symm]
  refine Finset.sum_congr rfl fun k _ => ?_
  have c2 := contrEquiv1_symm_val (DotDims.plain M K N) K rfl rfl k
  congr 2 <;> exact Shape.idx_ext₂ (by first | rfl | exact c2) (by first | rfl | exact c2)

end Cert.Hand

namespace Cert.Hand

open Idealize.ShloMosaic

theorem hz : (![0, 0] : Fin 2 → ℕ) = fun _ => 0 := by decide

variable {sig : RefSig} {κ : Kind} {sp : Space} {sz : Fin 2 → ℕ} {e : EltTy} {Val : EltTy → Type} [∀ e, Nonempty (Val e)]
  (v : View sig κ sp ⟨2, sz⟩ e) (inb : ∀ a, (![0, 0] : Fin 2 → ℕ) a + sz a ≤ sz a)

/-- A store over the whole buffer, made last, is what the buffer then holds, -/
theorem read_store (f) (w) (L : List (View.Piece Val ⟨2, sz⟩ e)) :
    v.read Val (v.writes Val f (⟨Rect.unit ![0, 0] sz inb, w⟩ :: L)) = w :=
  (View.read_writes_eq_canon _ _ _ fun y => ⟨_, .head _, View.mem_set_unit_zero hz inb y⟩).trans (View.canon_cons_unit_zero hz inb w L)

/-- what a load of the whole buffer then reads, -/
theorem readCov_store (w) (L : List (View.Piece Val ⟨2, sz⟩ e)) :
    v.readCov (⟨Rect.unit ![0, 0] sz inb, w⟩ :: L) (Rect.unit ![0, 0] sz inb).toLoadRect = w := by
  rw [View.readCov_eq_canon_ld _ _ _ fun y => ⟨_, .head _, View.mem_set_unit_zero hz inb y⟩, View.canon_cons_unit_zero hz, View.ld_unit_zero hz]

/-- and a load of a whole buffer reads its contents. -/
theorem readAt_whole (f) : v.readAt Val (Rect.unit ![0, 0] sz inb).toLoadRect f = v.read Val f :=
  View.ld_unit_zero hz inb _

theorem ld_whole (X : (⟨2, sz⟩ : Shape).Idx → Val e) : View.ld X (Rect.unit ![0, 0] sz inb) = X :=
  View.ld_unit_zero hz inb X

end Cert.Hand

end
-- ==== Proof.Hand.Spec.lean ====
/-
  What both programs compute, over the reals.  With A[n, s] the sum of the weights of the edges s → n:
  hidden = relu(A · (x · W1)), [mean | logstd] = A · (hidden · [W2 | W3]), z = mean + eps · exp(logstd), result = z · zᵀ.
  A real array is a function of natural-number coordinates.
-/
import Idealize.ShloMosaic.PureOps.Ideal
import Idealize.ShloMosaic.Lib.ValueIdx

noncomputable section

namespace Cert.Spec

open Idealize.ShloMosaic

/-- A real function of two coordinates, read as an `[a, b]` array of extended reals. -/
def coe2 {a b : ℕ} (f : ℕ → ℕ → ℝ) : (⟨2, ![a, b]⟩ : Shape).Idx → EReal :=
  fun i => ((f (i 0).val (i 1).val : ℝ) : EReal)

def coe1 {a : ℕ} (f : ℕ → ℝ) : (⟨1, ![a]⟩ : Shape).Idx → EReal :=
  fun i => ((f (i 0).val : ℝ) : EReal)

theorem coe2_apply {a b : ℕ} (f : ℕ → ℕ → ℝ) (i : (⟨2, ![a, b]⟩ : Shape).Idx) :
    coe2 f i = ((f (i 0).val (i 1).val : ℝ) : EReal) := rfl

theorem coe1_apply {a : ℕ} (f : ℕ → ℝ) (i : (⟨1, ![a]⟩ : Shape).Idx) :
    coe1 f i = ((f (i 0).val : ℝ) : EReal) := rfl

/-- The edge list's node indices as natural numbers. -/
def natOf (a : (⟨1, ![524288]⟩ : Shape).Idx → BitVec 32) : ℕ → ℕ :=
  fun e => if h : e < 524288 then (a (ValueIdx.ix1 ⟨e, h⟩)).toNat else 0

/-- Every index names one of the 8192 nodes. -/
def InRange (a : (⟨1, ![524288]⟩ : Shape).Idx → BitVec 32) : Prop := ∀ e, (a e).toNat < 8192

theorem natOf_lt {a : (⟨1, ![524288]⟩ : Shape).Idx → BitVec 32} (h : InRange a) (e : ℕ) : natOf a e < 8192 := by
  unfold natOf; split
  · exact h _
  · exact Nat.zero_lt_succ _

def mm (K : ℕ) (a b : ℕ → ℕ → ℝ) : ℕ → ℕ → ℝ :=
  fun n j => ∑ k ∈ Finset.range K, a n k * b k j

/-- The weighted adjacency matrix. -/
def adj (src dst : ℕ → ℕ) (w : ℕ → ℝ) : ℕ → ℕ → ℝ :=
  fun n s => ∑ e ∈ (Finset.range 524288).filter (fun e => dst e = n ∧ src e = s), w e

/-- `[W2 | W3]`, 64 columns each. -/
def cat (W2 W3 : ℕ → ℕ → ℝ) : ℕ → ℕ → ℝ :=
  fun k j => if j < 64 then W2 k j else W3 k (j - 64)

def hid (A t : ℕ → ℕ → ℝ) : ℕ → ℕ → ℝ :=
  fun n j => max (mm 8192 A t n j) 0

/-- Columns 0–63 of `A · t` are the mean, columns 64–127 the logarithm of the deviation. -/
def lat (A t eps : ℕ → ℕ → ℝ) : ℕ → ℕ → ℝ :=
  fun n j => mm 8192 A t n j + eps n j * Real.exp (mm 8192 A t n (j + 64))

def gram (z : ℕ → ℕ → ℝ) : ℕ → ℕ → ℝ :=
  fun n n' => ∑ j ∈ Finset.range 64, z n j * z n' j

def out (x : ℕ → ℕ → ℝ) (src dst : ℕ → ℕ) (w : ℕ → ℝ) (eps W1 W2 W3 : ℕ → ℕ → ℝ) : ℕ → ℕ → ℝ :=
  gram (lat (adj src dst w) (mm 256 (hid (adj src dst w) (mm 512 x W1)) (cat W2 W3)) eps)

end Cert.Spec

end
-- ==== Proof.Hand.KI.Blocks.lean ====
import proofs.«400964_j13743895347838_3_alg».proof.Proof.Gen.KernelIdeal.Launch
import proofs.«400964_j13743895347838_3_alg».proof.Proof.Gen.KernelIdeal.Skeleton
import proofs.«400964_j13743895347838_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«400964_j13743895347838_3_alg».proof.Proof.LibRun

noncomputable section

namespace Cert.KernelIdeal.Hand

open Idealize.ShloMosaic Idealize.ShloMosaic.TcCoe Idealize.SL.Sem
open Cert.KernelIdeal Cert.KernelIdeal.Gen

variable {F : FTy → Type} [FloatOps F]

variable (V : (c : Dev nD) → (b : Ref sig .tc) → Buf (Elt F) ((c : Thread nD τ).loc b))

/-- Window `w`'s block of region 0 at grid point `t`: the rectangle of its array, as the region finds it, that the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same for regions 1, 2 and 3. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

end Cert.KernelIdeal.Hand

end
-- ==== Proof.Hand.KI.Reg0.lean ====
import Idealize.ShloMosaic.Lib.Pipeline.Value
import proofs.«400964_j13743895347838_3_alg».proof.Proof.Hand.Spec
import proofs.«400964_j13743895347838_3_alg».proof.Proof.Hand.KI.Blocks

noncomputable section

namespace Cert.KernelIdeal.Hand.R0

open Idealize.ShloMosaic Idealize.ShloMosaic.TcCoe Idealize.SL Idealize.SL.RA Idealize.SL.BI Idealize.SL.BI.BIBase Idealize.SL.BI.Laws Idealize.SL.Sem
open scoped Idealize.SL.BI
open Idealize.ShloMosaic.Pipeline (Dat BodyObligation)
open Cert.KernelIdeal.Gen Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The reduction axis has extent one: the one condition both of the body's branches test holds at every point, and the output block is written back at every point. -/
theorem hcond : ∀ t : Fin cfg0.N, k0_cond2 (grid0.coords t) = 1#1 ∧ idle0 2 (grid0.coords t) = false :=
  (by decide +kernel : ∀ t : Fin grid0.N, _)

local macro_rules | `(tactic| sl_pure) => `(tactic| (sl_unfold_words; simp only [read_store, readCov_store, readAt_whole]))

/-- The class invariant with the accumulator taken out of the scoped rest. -/
theorem PhiA0_eq (c : Dev nD) : (Pipeline.ΦA spec0 c : sProp 𝕄)
    = iprop(((∃ d, owns c.tc (Memref.whole cc0_scratch0) fullShare d) ∗ Pipeline.scopedRestBut spec0 c [cc0_scratch0]) ∗ ∃ r, prngReg c r) := by
  unfold Pipeline.ΦA; rw [scopedRest0_split]; simp only [owns_whole]; try rfl

/-- At every point the body zeroes the accumulator, adds the product of the two input buffers into it and copies it to the output buffer. -/
theorem kernelRun0 (c : Dev nD) (t : Fin cfg0.N)
    (arg3 : Memref sig .tc .vmem S2048x512 .f32) (harg3 : arg3.IsWhole) (arg4 : Memref sig .tc .vmem S512x256 .f32) (harg4 : arg4.IsWhole)
    (arg5 arg6 : Memref sig .tc .vmem S2048x256 .f32) (harg5 : arg5.IsWhole) (harg6 : arg6.IsWhole)
    (x0 : Vec F S2048x512 .f32) (x1 : Vec F S512x256 .f32) (E : Set ℕ) (K : PUnit → sProp 𝕄) :
    iprop(owns c.tc arg3 fullShare x0 ∗ owns c.tc arg4 fullShare x1 ∗ (∃ d, owns c.tc arg5 fullShare d) ∗ (∃ d, owns c.tc arg6 fullShare d)
        ∗ (iprop(owns c.tc arg3 fullShare x0 ∗ owns c.tc arg4 fullShare x1 ∗ owns c.tc arg5 fullShare (k0_pay2 (k0_pay1 (F := F)) x0 x1)
            ∗ owns c.tc arg6 fullShare (k0_pay2 (k0_pay1 (F := F)) x0 x1)) -∗ K ⟨⟩))
      ⊢ wp frame (wpE (defs₀ (F := F)) Variants.none c none) E (cc0__matmul_kernel (grid0.coords t) arg3 harg3 arg4 harg4 arg5 harg5 arg6 harg6) K := by
  simp only [cc0__matmul_kernel_eq_skeleton]; unfold cc0__matmul_kernel_skel owns
  iintro ⟨⟨%f0, %hf0, H0⟩, ⟨%f1, %hf1, H1⟩, ⟨%d2, %f2, -, H2⟩, ⟨%d3, %f3, -, H3⟩, Hk⟩
  subst hf0; subst hf1
  sl_exec (disch := exact (hcond t).1)
  sl_step
  iapply Hk
  sl_close

/-- The arrays as the region finds them; after the body each input's buffer at its block and the output's at the product payload of the two blocks. -/
def dat (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (k0_pay1 (F := F)) (iblk0 V c 0 t) (iblk0 V c 1 t)
  Φ _ := Pipeline.ΦA spec0 c
  q _ := fullShare
  owed _ := 0

theorem A_eq (c : Dev nD) (w : Fin cfg0.W) : (dat V c).A w = V c (Pipeline.arrRef spec0 w) := rfl

theorem after_out (c : Dev nD) (t : Fin cfg0.N) :
    (dat V c).after 2 t = k0_pay2 (k0_pay1 (F := F)) (iblk0 V c 0 t) (iblk0 V c 1 t) := by
  dsimp only [dat]

/-- What the body finds in an input window's buffer is what it leaves there: the window's block. -/
theorem before_in (c : Dev nD) : ∀ w : Fin cfg0.W, w ≠ 2 → ∀ t d, (dat V c).before w t d = (dat V c).after w t
  | 2, h => absurd rfl h
  | 0, _ | 1, _ => fun t d => ((dat V c).before_in_eq_fetched _ rfl (fun _ => rfl) (fun _ _ _ => rfl) (fun _ => rfl) t d).trans rfl

/-- The invariant lends the body the accumulator at any contents and takes it back at any; all else passes through. -/
theorem body_obligation (c : Dev nD) : BodyObligation (dat (F := F) V c) (defs₀ (F := F)) Variants.none () Set.univ := fun t => by
  rw [bigSep_W0, bigSep_W0]
  show _ ⊢ wp _ _ _ (bodyAt0 t) fun _ => iprop(_ ∗ (dat V c).owesAt () t.castSucc ∗ _)
  simp only [before_in V c 0 (by decide), before_in V c 1 (by decide), (hcond t).2]
  dsimp only [dat]
  rw [PhiA0_eq]
  iintro ⟨⟨⟨H3, Hr⟩, Hg⟩, Ho, ⟨%d0, H0⟩, ⟨%d1, H1⟩, ⟨%d2, H2⟩⟩
  iapply (kernelRun0 c t _ _ _ _ _ _ _ _ _ _ _ _)
  iframe H0 H1 H3
  isplitl [H2]; · iexists _; iexact H2
  iintro ⟨H0, H1, H2, H3⟩
  iframe Hr Hg Ho H0 H1 H2
  iexists _; iexact H3

theorem hin (c : Dev nD) : (Pipeline.ΦA spec0 c : sProp 𝕄) ⊢ (dat V c).Φ 0 := .rfl

theorem hout (c : Dev nD) : (dat V c).Φ (Fin.last cfg0.N) ⊢ (Pipeline.ΦA spec0 c : sProp 𝕄) := .rfl

end Cert.KernelIdeal.Hand.R0

end
-- ==== Proof.Hand.KI.Reg1.lean ====
/-
  Region 1 (the hidden layer and its projection), on a 4 × 8 grid of blocks of the adjacency matrix, from the contents `V`
  the region is entered with: what the accumulator holds after each point, what the output block holds at the end of
  each row of blocks, and the body obligation over these.
-/
import Idealize.ShloMosaic.Lib.Pipeline.Value
import proofs.«400964_j13743895347838_3_alg».proof.Proof.Hand.Spec
import proofs.«400964_j13743895347838_3_alg».proof.Proof.Hand.KI.Blocks

noncomputable section

namespace Cert.KernelIdeal.Hand.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's first condition (the accumulator is reset), from the grid coordinates: -/
abbrev cond1_0 (i : grid1.Coords) : Prop := (Scalar.cmpi .ne (Scalar.extui (Scalar.cmpi .eq (BitVec.ofNat 32 (i 1).val) 0#32)) 0#32) = 1#1
/-- it holds at the first column block of each row. -/
theorem hcond1_0 : ∀ t : Fin cfg1.N, cond1_0 (grid1.coords t) ↔ t.val % 8 = 0 := by decide +kernel

/-- The second condition (the output block is stored). -/
abbrev cond1_1 (i : grid1.Coords) : Prop := k1_cond2 i = 1#1
theorem out_idle : ∀ t : Fin cfg1.N, if cond1_1 (grid1.coords t) then cfg1.idle 3 (grid1.coords t) = false
    else cfg1.idle 3 (grid1.coords t) = true ∧ (cfg1.win 3).flush t = false := by decide +kernel

/-- The body on whole buffers at given contents: the accumulator ends at the update of what it held, or of the reset
    value where the first condition holds; the output block, where the second holds, at the projection of that. -/
theorem run {c : Dev nD} {i : grid1.Coords}
    {arg2 : Memref sig .tc .vmem S2048x1024 .f32} {harg2 : arg2.IsWhole} {arg3 : Memref sig .tc .vmem S1024x256 .f32} {harg3 : arg3.IsWhole}
    {arg4 : Memref sig .tc .vmem S256x128 .f32} {harg4 : arg4.IsWhole} {arg5 : Memref sig .tc .vmem S2048x128 .f32} {harg5 : arg5.IsWhole}
    {arg6 : Memref sig .tc .vmem S2048x256 .f32} {harg6 : arg6.IsWhole}
    {x0 : Vec F S2048x1024 .f32} {x1 : Vec F S1024x256 .f32} {x2 : Vec F S256x128 .f32} {x3 : Vec F S2048x128 .f32} {xs : Vec F S2048x256 .f32}
    {E : Set ℕ} {K : PUnit → sProp 𝕄} :
    iprop(owns c.tc arg2 fullShare x0 ∗ owns c.tc arg3 fullShare x1 ∗ owns c.tc arg4 fullShare x2
        ∗ owns c.tc arg5 fullShare x3 ∗ owns c.tc arg6 fullShare xs
        ∗ (iprop(owns c.tc arg2 fullShare x0 ∗ owns c.tc arg3 fullShare x1 ∗ owns c.tc arg4 fullShare x2
            ∗ owns c.tc arg5 fullShare (if cond1_1 i then k1_pay3 (k1_pay2 (if cond1_0 i then k1_pay1 else xs) x0 x1) x2 else x3)
            ∗ owns c.tc arg6 fullShare (k1_pay2 (if cond1_0 i then k1_pay1 else xs) x0 x1)) -∗ K ⟨⟩))
      ⊢ wp frame (wpE (defs₀ (F := F)) Variants.none c none) E (cc1__gcn1_kernel i arg2 harg2 arg3 harg3 arg4 harg4 arg5 harg5 arg6 harg6) K := by
  simp only [cc1__gcn1_kernel_eq_skeleton]; unfold cc1__gcn1_kernel_skel owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  by_cases hc0 : cond1_0 i <;> by_cases hc1 : cond1_1 i
  all_goals
    sl_exec (disch := first | exact hc0 | exact hc1)
    sl_step
    iapply Hk
    isplitl [H0]; swap; isplitl [H1]; swap; isplitl [H2]; swap; isplitl [H3]
    all_goals
      iexists _; isplitr; swap; · iassumption
      ipureintro; sl_unfold_words
      try first | rw [if_pos hc1] | rw [if_neg hc1]
      try first | rw [if_pos hc0] | rw [if_neg hc0]
      simp only [read_store, View.readAt_eq_ld, ld_whole, View.readCov_cons_toLoadRect, harg2.read_unread, harg3.read_unread,
        harg4.read_unread, harg5.read_unread, harg6.read_unread]

/-- The accumulator after point `n`: the update, by the point's two blocks, of what point `n - 1` left, or of the reset
    value at the first column block of a row. -/
def acc (c : Dev nD) : (n : ℕ) → n < cfg1.N → Vec F S2048x256 .f32
  | 0, hn => k1_pay2 (k1_pay1 (F := F)) (iblk1 V c 0 ⟨0, hn⟩) (iblk1 V c 1 ⟨0, hn⟩)
  | n + 1, hn =>
    if (n + 1) % 8 = 0 then k1_pay2 (k1_pay1 (F := F)) (iblk1 V c 0 ⟨n + 1, hn⟩) (iblk1 V c 1 ⟨n + 1, hn⟩)
    else k1_pay2 (acc c n (Nat.lt_of_succ_lt hn)) (iblk1 V c 0 ⟨n + 1, hn⟩) (iblk1 V c 1 ⟨n + 1, hn⟩)

theorem acc_reset (c : Dev nD) (t : Fin cfg1.N) (h : t.val % 8 = 0) :
    acc V c t.val t.isLt = k1_pay2 (k1_pay1 (F := F)) (iblk1 V c 0 t) (iblk1 V c 1 t) := by
  obtain ⟨_ | n, hn⟩ := t
  exacts [rfl, if_pos h]

theorem acc_step (c : Dev nD) (t : Fin cfg1.N) (h : t.val % 8 ≠ 0) :
    acc V c t.val t.isLt = k1_pay2 (acc V c (t.val - 1) (Nat.lt_of_le_of_lt (Nat.sub_le _ _) t.isLt)) (iblk1 V c 0 t) (iblk1 V c 1 t) := by
  obtain ⟨_ | n, hn⟩ := t
  exacts [absurd (Nat.zero_mod _) h, if_neg h]

/-- One point's update, from contents that are the previous point's wherever there is a previous point. -/
theorem acc_next (c : Dev nD) (t : Fin cfg1.N) (d : Vec F S2048x256 .f32) (hd : ∀ n hn, t.val = n + 1 → d = acc V c n hn) :
    k1_pay2 (if cond1_0 (grid1.coords t) then k1_pay1 else d) (iblk1 V c 0 t) (iblk1 V c 1 t) = acc V c t.val t.isLt := by
  by_cases h : t.val % 8 = 0
  · rw [if_pos ((hcond1_0 t).mpr h), acc_reset V c t h]
  · rw [if_neg (mt (hcond1_0 t).mp h), acc_step V c t h, ← hd (t.val - 1) _ (by omega)]

abbrev scM : Memref sig .tc .vmem S2048x256 .f32 := Memref.whole cc1_scratch0

abbrev restBut (c : Dev nD) : sProp 𝕄 :=
  Pipeline.scopedRestBut (Ix := Unit) (Name := ℕ) (U := UR sig nD τ) (Lvl := ℕ) (Val := Elt F) spec1 c [cc1_scratch0]

/-- What the region is entered with, the accumulator split off at some contents. -/
theorem PhiA_eq (c : Dev nD) :
    (Pipeline.ΦA spec1 c : sProp 𝕄)
      = iprop(iprop(iprop((∃ d, owns c.tc scM fullShare d)) ∗ restBut (F := F) c) ∗ (∃ r, prngReg c r)) := by
  unfold Pipeline.ΦA; rw [scopedRest1_split]; simp only [scM, owns_whole]; try rfl

/-- Before position `n` the accumulator is at some contents: after a point, those the point left. -/
def PhiS (c : Dev nD) (n : ℕ) : sProp 𝕄 :=
  iprop(iprop(iprop(∃ d, ⌜∀ m hm, n = m + 1 → d = acc V c m hm⌝ ∗ owns c.tc scM fullShare d) ∗ restBut (F := F) c) ∗ (∃ r, prngReg c r))

/-- The proof data: after the body each input is at its block and the output at the projection of the accumulator. -/
def dat (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc V c t.val t.isLt) (iblk1 V c 2 t)
  Φ t := PhiS V c t.val
  q _ := fullShare
  owed _ := 0

theorem A_eq (c : Dev nD) (w : Fin cfg1.W) : (dat V c).A w = V c (Pipeline.arrRef spec1 w) := by
  dsimp only [dat]

theorem Phi_eq (c : Dev nD) (t : Fin (cfg1.N + 1)) : (dat V c).Φ t = PhiS V c t.val := rfl

theorem after_0 (c : Dev nD) (t : Fin cfg1.N) : (dat V c).after 0 t = iblk1 V c 0 t := by dsimp only [dat]
theorem after_1 (c : Dev nD) (t : Fin cfg1.N) : (dat V c).after 1 t = iblk1 V c 1 t := by dsimp only [dat]
theorem after_2 (c : Dev nD) (t : Fin cfg1.N) : (dat V c).after 2 t = iblk1 V c 2 t := by dsimp only [dat]

theorem after_out (c : Dev nD) (t : Fin cfg1.N) (h : t.val % 8 = 7) :
    (dat V c).after 3 t = k1_pay3 (acc V c t.val t.isLt) (iblk1 V c 2 t) := by dsimp only [dat]

/-- When the body runs each input is at its block. -/
theorem before_in (c : Dev nD) (t : Fin cfg1.N) : (∀ d, (dat V c).before 0 t d = iblk1 V c 0 t)
    ∧ (∀ d, (dat V c).before 1 t d = iblk1 V c 1 t) ∧ ∀ d, (dat V c).before 2 t d = iblk1 V c 2 t := by
  refine ⟨fun d => ?_, fun d => ?_, fun d => ?_⟩ <;>
    exact ((dat V c).before_in_eq_fetched _ rfl (fun _ => rfl) (fun _ _ _ => rfl)
      (fun t => by dsimp only [dat, Dat.blockOf, iblk1]; try rfl) t d).trans (by dsimp only [dat, Dat.fetched, Dat.blockOf, iblk1]; try rfl)

/-- The output at the projection of the accumulator where it is stored, and as found elsewhere, is what the body is to leave. -/
theorem leaves_3 (c : Dev nD) (t : Fin cfg1.N) (d) (X) (hX : X = acc V c t.val t.isLt) :
    owns c.tc ((cfg1.win 3).stage (cfg1.slots t 3)) fullShare
        (if cond1_1 (grid1.coords t) then k1_pay3 X (iblk1 V c 2 t) else (dat V c).before 3 t d) ⊢ (dat V c).leavesExact 3 t := by
  have h := out_idle t
  subst hX
  by_cases hc : cond1_1 (grid1.coords t)
  · rw [if_pos hc] at h ⊢; unfold Dat.leavesExact; rw [h, show (dat V c).after 3 t = _ from by dsimp only [dat]]
  · rw [if_neg hc] at h ⊢; rw [Dat.leavesExact_idle _ 3 t h.1 h.2]
    iintro H; iexists d; iexact H

/-- At every point the body runs once from the invariant, whatever the accumulator held, to the invariant at the next point. -/
theorem body_obligation (c : Dev nD) : BodyObligation (dat (F := F) V c) (defs₀ (F := F)) Variants.none () Set.univ := fun t => by
  rw [bigSep_W1, bigSep_W1, show (dat V c).owesAt () t.succ = (dat V c).owesAt () t.castSucc from rfl]
  simp only [Phi_eq, PhiS, Fin.coe_castSucc, Fin.val_succ, before_in V c t, after_0, after_1, after_2]
  show _ ⊢ wp _ _ _ (bodyAt1 t) _
  iintro ⟨⟨⟨⟨%ds, %hd, HS⟩, HR⟩, Hg⟩, Ho, ⟨%d0, H0⟩, ⟨%d1, H1⟩, ⟨%d2, H2⟩, ⟨%d3, H3⟩⟩
  iapply run
  iframe H0 H1 H2 H3 HS
  iintro ⟨H0, H1, H2, H3, HS⟩
  iframe HR Hg Ho H0 H1 H2
  isplitl [HS]
  · iexists _; isplitr; swap; · iexact HS
    ipureintro; intro m hm e; obtain rfl := Nat.succ.inj e; exact acc_next V c t ds hd
  iapply (leaves_3 V c t d3 _ (acc_next V c t ds hd)); iexact H3

theorem hin (c : Dev nD) : (Pipeline.ΦA spec1 c : sProp 𝕄) ⊢ (dat V c).Φ 0 := by
  rw [PhiA_eq, Phi_eq, PhiS]
  iintro ⟨⟨⟨%d, HS⟩, HR⟩, Hg⟩
  iframe HR Hg
  iexists d; isplitr; · ipureintro; exact fun m _ e => absurd e (Nat.succ_ne_zero m).symm
  iexact HS

theorem hout (c : Dev nD) : (dat V c).Φ (Fin.last cfg1.N) ⊢ (Pipeline.ΦA spec1 c : sProp 𝕄) := by
  rw [PhiA_eq, Phi_eq, PhiS]
  iintro ⟨⟨⟨%d, -, HS⟩, HR⟩, Hg⟩
  iframe HR Hg
  iexists d; iexact HS

end Cert.KernelIdeal.Hand.R1

end
-- ==== Proof.Hand.KI.Reg2.lean ====
/-
  Region 2 (the latent code), on a 4 × 16 grid of blocks of the adjacency matrix, from the contents `V` the region is
  entered with: what the accumulator holds after each point, what the output block holds at the end of each row of
  blocks, and the body obligation over these.
-/
import Idealize.ShloMosaic.Lib.Pipeline.Value
import proofs.«400964_j13743895347838_3_alg».proof.Proof.Hand.Spec
import proofs.«400964_j13743895347838_3_alg».proof.Proof.Hand.KI.Blocks

noncomputable section

namespace Cert.KernelIdeal.Hand.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's first condition (the accumulator is reset), from the grid coordinates: -/
abbrev cond2_0 (i : grid2.Coords) : Prop := (Scalar.cmpi .ne (Scalar.extui (Scalar.cmpi .eq (BitVec.ofNat 32 (i 1).val) 0#32)) 0#32) = 1#1
/-- it holds at the first column block of each row. -/
theorem hcond2_0 : ∀ t : Fin cfg2.N, cond2_0 (grid2.coords t) ↔ t.val % 16 = 0 := by decide +kernel

/-- The second condition (the output block is stored). -/
abbrev cond2_1 (i : grid2.Coords) : Prop := k2_cond2 i = 1#1
theorem out_idle : ∀ t : Fin cfg2.N, if cond2_1 (grid2.coords t) then cfg2.idle 3 (grid2.coords t) = false
    else cfg2.idle 3 (grid2.coords t) = true ∧ (cfg2.win 3).flush t = false := by decide +kernel

/-- The body on whole buffers at given contents: the accumulator ends at the update of what it held, or of the reset
    value where the first condition holds; the output block, where the second holds, at the code computed from that. -/
theorem run {c : Dev nD} {i : grid2.Coords}
    {arg2 : Memref sig .tc .vmem S2048x512 .f32} {harg2 : arg2.IsWhole} {arg3 : Memref sig .tc .vmem S512x128 .f32} {harg3 : arg3.IsWhole}
    {arg4 : Memref sig .tc .vmem S2048x64 .f32} {harg4 : arg4.IsWhole} {arg5 : Memref sig .tc .vmem S2048x64 .f32} {harg5 : arg5.IsWhole}
    {arg6 : Memref sig .tc .vmem S2048x128 .f32} {harg6 : arg6.IsWhole}
    {x0 : Vec F S2048x512 .f32} {x1 : Vec F S512x128 .f32} {x2 : Vec F S2048x64 .f32} {x3 : Vec F S2048x64 .f32} {xs : Vec F S2048x128 .f32}
    {E : Set ℕ} {K : PUnit → sProp 𝕄} :
    iprop(owns c.tc arg2 fullShare x0 ∗ owns c.tc arg3 fullShare x1 ∗ owns c.tc arg4 fullShare x2
        ∗ owns c.tc arg5 fullShare x3 ∗ owns c.tc arg6 fullShare xs
        ∗ (iprop(owns c.tc arg2 fullShare x0 ∗ owns c.tc arg3 fullShare x1 ∗ owns c.tc arg4 fullShare x2
            ∗ owns c.tc arg5 fullShare (if cond2_1 i then k2_pay3 (k2_pay2 (if cond2_0 i then k2_pay1 else xs) x0 x1) x2 else x3)
            ∗ owns c.tc arg6 fullShare (k2_pay2 (if cond2_0 i then k2_pay1 else xs) x0 x1)) -∗ K ⟨⟩))
      ⊢ wp frame (wpE (defs₀ (F := F)) Variants.none c none) E (cc2__spmm_reparam_kernel i arg2 harg2 arg3 harg3 arg4 harg4 arg5 harg5 arg6 harg6) K := by
  simp only [cc2__spmm_reparam_kernel_eq_skeleton]; unfold cc2__spmm_reparam_kernel_skel owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  by_cases hc0 : cond2_0 i <;> by_cases hc1 : cond2_1 i
  all_goals
    sl_exec (disch := first | exact hc0 | exact hc1)
    sl_step
    iapply Hk
    isplitl [H0]; swap; isplitl [H1]; swap; isplitl [H2]; swap; isplitl [H3]
    all_goals
      iexists _; isplitr; swap; · iassumption
      ipureintro; sl_unfold_words
      try first | rw [if_pos hc1] | rw [if_neg hc1]
      try first | rw [if_pos hc0] | rw [if_neg hc0]
      simp only [read_store, View.readAt_eq_ld, ld_whole, View.readCov_cons_toLoadRect, harg2.read_unread, harg3.read_unread,
        harg4.read_unread, harg5.read_unread, harg6.read_unread]

/-- The accumulator after point `n`: the update, by the point's two blocks, of what point `n - 1` left, or of the reset
    value at the first column block of a row. -/
def acc (c : Dev nD) : (n : ℕ) → n < cfg2.N → Vec F S2048x128 .f32
  | 0, hn => k2_pay2 (k2_pay1 (F := F)) (iblk2 V c 0 ⟨0, hn⟩) (iblk2 V c 1 ⟨0, hn⟩)
  | n + 1, hn =>
    if (n + 1) % 16 = 0 then k2_pay2 (k2_pay1 (F := F)) (iblk2 V c 0 ⟨n + 1, hn⟩) (iblk2 V c 1 ⟨n + 1, hn⟩)
    else k2_pay2 (acc c n (Nat.lt_of_succ_lt hn)) (iblk2 V c 0 ⟨n + 1, hn⟩) (iblk2 V c 1 ⟨n + 1, hn⟩)

theorem acc_reset (c : Dev nD) (t : Fin cfg2.N) (h : t.val % 16 = 0) :
    acc V c t.val t.isLt = k2_pay2 (k2_pay1 (F := F)) (iblk2 V c 0 t) (iblk2 V c 1 t) := by
  obtain ⟨_ | n, hn⟩ := t
  exacts [rfl, if_pos h]

theorem acc_step (c : Dev nD) (t : Fin cfg2.N) (h : t.val % 16 ≠ 0) :
    acc V c t.val t.isLt = k2_pay2 (acc V c (t.val - 1) (Nat.lt_of_le_of_lt (Nat.sub_le _ _) t.isLt)) (iblk2 V c 0 t) (iblk2 V c 1 t) := by
  obtain ⟨_ | n, hn⟩ := t
  exacts [absurd (Nat.zero_mod _) h, if_neg h]

/-- One point's update, from contents that are the previous point's wherever there is a previous point. -/
theorem acc_next (c : Dev nD) (t : Fin cfg2.N) (d : Vec F S2048x128 .f32) (hd : ∀ n hn, t.val = n + 1 → d = acc V c n hn) :
    k2_pay2 (if cond2_0 (grid2.coords t) then k2_pay1 else d) (iblk2 V c 0 t) (iblk2 V c 1 t) = acc V c t.val t.isLt := by
  by_cases h : t.val % 16 = 0
  · rw [if_pos ((hcond2_0 t).mpr h), acc_reset V c t h]
  · rw [if_neg (mt (hcond2_0 t).mp h), acc_step V c t h, ← hd (t.val - 1) _ (by omega)]

abbrev scM : Memref sig .tc .vmem S2048x128 .f32 := Memref.whole cc2_scratch0

abbrev restBut (c : Dev nD) : sProp 𝕄 :=
  Pipeline.scopedRestBut (Ix := Unit) (Name := ℕ) (U := UR sig nD τ) (Lvl := ℕ) (Val := Elt F) spec2 c [cc2_scratch0]

/-- What the region is entered with, the accumulator split off at some contents. -/
theorem PhiA_eq (c : Dev nD) :
    (Pipeline.ΦA spec2 c : sProp 𝕄)
      = iprop(iprop(iprop((∃ d, owns c.tc scM fullShare d)) ∗ restBut (F := F) c) ∗ (∃ r, prngReg c r)) := by
  unfold Pipeline.ΦA; rw [scopedRest2_split]; simp only [scM, owns_whole]; try rfl

/-- Before position `n` the accumulator is at some contents: after a point, those the point left. -/
def PhiS (c : Dev nD) (n : ℕ) : sProp 𝕄 :=
  iprop(iprop(iprop(∃ d, ⌜∀ m hm, n = m + 1 → d = acc V c m hm⌝ ∗ owns c.tc scM fullShare d) ∗ restBut (F := F) c) ∗ (∃ r, prngReg c r))

/-- The proof data: after the body each input is at its block and the output at the code computed from the accumulator. -/
def dat (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc V c t.val t.isLt) (iblk2 V c 2 t)
  Φ t := PhiS V c t.val
  q _ := fullShare
  owed _ := 0

theorem A_eq (c : Dev nD) (w : Fin cfg2.W) : (dat V c).A w = V c (Pipeline.arrRef spec2 w) := by
  dsimp only [dat]

theorem Phi_eq (c : Dev nD) (t : Fin (cfg2.N + 1)) : (dat V c).Φ t = PhiS V c t.val := rfl

theorem after_0 (c : Dev nD) (t : Fin cfg2.N) : (dat V c).after 0 t = iblk2 V c 0 t := by dsimp only [dat]
theorem after_1 (c : Dev nD) (t : Fin cfg2.N) : (dat V c).after 1 t = iblk2 V c 1 t := by dsimp only [dat]
theorem after_2 (c : Dev nD) (t : Fin cfg2.N) : (dat V c).after 2 t = iblk2 V c 2 t := by dsimp only [dat]

theorem after_out (c : Dev nD) (t : Fin cfg2.N) (h : t.val % 16 = 15) :
    (dat V c).after 3 t = k2_pay3 (acc V c t.val t.isLt) (iblk2 V c 2 t) := by dsimp only [dat]

/-- When the body runs each input is at its block. -/
theorem before_in (c : Dev nD) (t : Fin cfg2.N) : (∀ d, (dat V c).before 0 t d = iblk2 V c 0 t)
    ∧ (∀ d, (dat V c).before 1 t d = iblk2 V c 1 t) ∧ ∀ d, (dat V c).before 2 t d = iblk2 V c 2 t := by
  refine ⟨fun d => ?_, fun d => ?_, fun d => ?_⟩ <;>
    exact ((dat V c).before_in_eq_fetched _ rfl (fun _ => rfl) (fun _ _ _ => rfl)
      (fun t => by dsimp only [dat, Dat.blockOf, iblk2]; try rfl) t d).trans (by dsimp only [dat, Dat.fetched, Dat.blockOf, iblk2]; try rfl)

/-- The output at the code computed from the accumulator where it is stored, and as found elsewhere, is what the body is to leave. -/
theorem leaves_3 (c : Dev nD) (t : Fin cfg2.N) (d) (X) (hX : X = acc V c t.val t.isLt) :
    owns c.tc ((cfg2.win 3).stage (cfg2.slots t 3)) fullShare
        (if cond2_1 (grid2.coords t) then k2_pay3 X (iblk2 V c 2 t) else (dat V c).before 3 t d) ⊢ (dat V c).leavesExact 3 t := by
  have h := out_idle t
  subst hX
  by_cases hc : cond2_1 (grid2.coords t)
  · rw [if_pos hc] at h ⊢; unfold Dat.leavesExact; rw [h, show (dat V c).after 3 t = _ from by dsimp only [dat]]
  · rw [if_neg hc] at h ⊢; rw [Dat.leavesExact_idle _ 3 t h.1 h.2]
    iintro H; iexists d; iexact H

/-- At every point the body runs once from the invariant, whatever the accumulator held, to the invariant at the next point. -/
theorem body_obligation (c : Dev nD) : BodyObligation (dat (F := F) V c) (defs₀ (F := F)) Variants.none () Set.univ := fun t => by
  rw [bigSep_W2, bigSep_W2, show (dat V c).owesAt () t.succ = (dat V c).owesAt () t.castSucc from rfl]
  simp only [Phi_eq, PhiS, Fin.coe_castSucc, Fin.val_succ, before_in V c t, after_0, after_1, after_2]
  show _ ⊢ wp _ _ _ (bodyAt2 t) _
  iintro ⟨⟨⟨⟨%ds, %hd, HS⟩, HR⟩, Hg⟩, Ho, ⟨%d0, H0⟩, ⟨%d1, H1⟩, ⟨%d2, H2⟩, ⟨%d3, H3⟩⟩
  iapply run
  iframe H0 H1 H2 H3 HS
  iintro ⟨H0, H1, H2, H3, HS⟩
  iframe HR Hg Ho H0 H1 H2
  isplitl [HS]
  · iexists _; isplitr; swap; · iexact HS
    ipureintro; intro m hm e; obtain rfl := Nat.succ.inj e; exact acc_next V c t ds hd
  iapply (leaves_3 V c t d3 _ (acc_next V c t ds hd)); iexact H3

theorem hin (c : Dev nD) : (Pipeline.ΦA spec2 c : sProp 𝕄) ⊢ (dat V c).Φ 0 := by
  rw [PhiA_eq, Phi_eq, PhiS]
  iintro ⟨⟨⟨%d, HS⟩, HR⟩, Hg⟩
  iframe HR Hg
  iexists d; isplitr; · ipureintro; exact fun m _ e => absurd e (Nat.succ_ne_zero m).symm
  iexact HS

theorem hout (c : Dev nD) : (dat V c).Φ (Fin.last cfg2.N) ⊢ (Pipeline.ΦA spec2 c : sProp 𝕄) := by
  rw [PhiA_eq, Phi_eq, PhiS]
  iintro ⟨⟨⟨%d, -, HS⟩, HR⟩, Hg⟩
  iframe HR Hg
  iexists d; iexact HS

end Cert.KernelIdeal.Hand.R2

end
-- ==== Proof.Hand.KI.Reg3.lean ====
import Idealize.ShloMosaic.Lib.Pipeline.Value
import proofs.«400964_j13743895347838_3_alg».proof.Proof.Hand.Spec
import proofs.«400964_j13743895347838_3_alg».proof.Proof.Hand.KI.Blocks

noncomputable section

namespace Cert.KernelIdeal.Hand.R3

open Idealize.ShloMosaic Idealize.ShloMosaic.TcCoe Idealize.SL Idealize.SL.RA Idealize.SL.BI Idealize.SL.BI.BIBase Idealize.SL.BI.Laws Idealize.SL.Sem
open scoped Idealize.SL.BI
open Idealize.ShloMosaic.Pipeline (Dat BodyObligation)
open Cert.KernelIdeal.Gen Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

local macro_rules | `(tactic| sl_pure) => `(tactic| simp only [read_store, readAt_whole])

/-- The body loads its four input buffers whole and stores the payload of the four over the whole output buffer. -/
theorem sound_kernel (c : Dev nD) (E : Set ℕ) (i : grid3.Coords) (arg2 arg3 arg4 arg5 : Memref sig .tc .vmem S2048x64 .bf16)
    (harg2 : arg2.IsWhole) (harg3 : arg3.IsWhole) (harg4 : arg4.IsWhole) (harg5 : arg5.IsWhole)
    (arg6 : Memref sig .tc .vmem S2048x2048 .f32) (harg6 : arg6.IsWhole) (x0 x1 x2 x3 : Vec F S2048x64 .bf16) (K : PUnit → sProp 𝕄) :
    iprop(owns c.tc arg2 fullShare x0 ∗ owns c.tc arg3 fullShare x1 ∗ owns c.tc arg4 fullShare x2 ∗ owns c.tc arg5 fullShare x3
        ∗ (∃ d, owns c.tc arg6 fullShare d)
        ∗ (iprop(owns c.tc arg2 fullShare x0 ∗ owns c.tc arg3 fullShare x1 ∗ owns c.tc arg4 fullShare x2 ∗ owns c.tc arg5 fullShare x3
            ∗ owns c.tc arg6 fullShare (k3_pay1 x0 x1 x2 x3)) -∗ K ⟨⟩))
      ⊢ wp frame (wpE (defs₀ (F := F)) Variants.none c none) E (cc3__decode_kernel i arg2 harg2 arg3 harg3 arg4 harg4 arg5 harg5 arg6 harg6) K := by
  simp only [cc3__decode_kernel_eq_skeleton]; unfold cc3__decode_kernel_skel owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  sl_close

/-- The arrays as the region finds them; after the body each input's buffer at its block and the output's at the payload of the four blocks.
    The two windows that read one array hold it at the two halves of the full share. -/
def dat (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay1 (iblk3 V c 0 t) (iblk3 V c 1 t) (iblk3 V c 2 t) (iblk3 V c 3 t)
  Φ _ := Pipeline.ΦA spec3 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg3.W) : (dat V c).A w = V c (Pipeline.arrRef spec3 w) := rfl

theorem after_out (c : Dev nD) (t : Fin cfg3.N) :
    (dat V c).after 4 t = k3_pay1 (iblk3 V c 0 t) (iblk3 V c 1 t) (iblk3 V c 2 t) (iblk3 V c 3 t) := by
  dsimp only [dat]

/-- What the body finds in an input window's buffer is what it leaves there: the window's block. -/
theorem before_in (c : Dev nD) : ∀ w : Fin cfg3.W, w ≠ 4 → ∀ t d, (dat V c).before w t d = (dat V c).after w t
  | 4, h => absurd rfl h
  | 0, _ | 1, _ | 2, _ | 3, _ => fun t d =>
    ((dat V c).before_in_eq_fetched _ rfl (fun _ => rfl) (fun _ _ _ => rfl) (fun _ => rfl) t d).trans rfl

/-- The invariant and the core's debts pass through the body unread. -/
theorem body_obligation (c : Dev nD) : BodyObligation (dat (F := F) V c) (defs₀ (F := F)) Variants.none () Set.univ := fun t => by
  rw [bigSep_W3, bigSep_W3]
  show _ ⊢ wp _ _ _ (bodyAt3 t) fun _ => iprop(_ ∗ (dat V c).owesAt () t.castSucc ∗ _)
  simp (disch := decide) only [before_in V c]
  dsimp only [dat]
  iintro ⟨HΦ, Ho, ⟨%d0, H0⟩, ⟨%d1, H1⟩, ⟨%d2, H2⟩, ⟨%d3, H3⟩, ⟨%d4, H4⟩⟩
  iapply (sound_kernel c _ _ _ _ _ _ _ _ _ _ _ _ _ _ _ _ _)
  iframe H0 H1 H2 H3
  isplitl [H4]; · iexists _; iexact H4
  iintro ⟨H0, H1, H2, H3, H4⟩
  iframe

theorem hin (c : Dev nD) : (Pipeline.ΦA spec3 c : sProp 𝕄) ⊢ (dat V c).Φ 0 := .rfl

theorem hout (c : Dev nD) : (dat V c).Φ (Fin.last cfg3.N) ⊢ (Pipeline.ΦA spec3 c : sProp 𝕄) := .rfl

/-- A core's unscoped buffers at `W` are the three buffers behind the five arrays and the rest. -/
theorem split₀ (c : Dev nD) (W : (b : Ref sig .tc) → Buf (Elt F) (c.tc.loc b)) :
    (unscopedBufs c W : sProp 𝕄) = iprop((Pipeline.arrBufs spec3 c W : sProp 𝕄) ∗ Pipeline.unscopedRest spec3 c W) :=
  Pipeline.unscopedBufs_split₀ (fun _ : Unit => cfg3) () winFacts₀3.arr_unscoped c W

/-- The three buffers whole at `W` are the five arrays at the windows' shares: the two halves of a full share make it. -/
theorem arrays_iff (c : Dev nD) (W : (b : Ref sig .tc) → Buf (Elt F) (c.tc.loc b))
    (G : (w : Fin cfg3.W) → Buf (Elt F) ((cfg3.win w).arr.view.loc c.tc)) (hG : ∀ w, G w = W (Pipeline.arrRef spec3 w)) :
    (Pipeline.arrBufs spec3 c W : sProp 𝕄) ⊣⊢ (dat V c).arrays G := by
  rw [show ((dat V c).arrays G : sProp 𝕄)
      = iprop((c.tc.loc main_v16 ↦{fullShare.left} W main_v16) ∗ (c.tc.loc main_v19 ↦{fullShare.left} W main_v19)
          ∗ (c.tc.loc main_v16 ↦{fullShare.right} W main_v16) ∗ (c.tc.loc main_v19 ↦{fullShare.right} W main_v19)
          ∗ (c.tc.loc main_v20 ↦{fullShare} W main_v20)) from by
        unfold Dat.arrays; rw [bigSep_W3]; simp only [View.set_whole, hG]; rfl,
    show (Pipeline.arrBufs spec3 c W : sProp 𝕄)
      = iprop((c.tc.loc main_v16 ↦{fullShare} W main_v16) ∗ (c.tc.loc main_v19 ↦{fullShare} W main_v19) ∗ (c.tc.loc main_v20 ↦{fullShare} W main_v20)) from
        bigSep_eq_bigSepL_of_eq [main_v16, main_v19, main_v20] (by decide) (by decide) _]
  have m := PosShare.mem_left_op_right fullShare
  constructor
  · iintro ⟨A, B, C⟩
    icases (pointsTo_share m).1 $$ A with ⟨Al, Ar⟩
    icases (pointsTo_share m).1 $$ B with ⟨Bl, Br⟩
    iframe
  · iintro ⟨Al, Bl, Ar, Br, C⟩
    iframe C
    isplitl [Al Ar] <;> iapply (pointsTo_share m).2 <;> iframe

theorem entry_split (c : Dev nD) :
    (unscopedBufs c (V c) : sProp 𝕄) ⊢ iprop((dat V c).arrays ((dat V c).arrAt · 0) ∗ Pipeline.unscopedRest spec3 c (V c)) := by
  rw [split₀]; exact sep_mono (arrays_iff V c _ _ fun _ => rfl).1 .rfl

/-- On exit the inputs are as entered and the result is at its final contents. -/
theorem exit_join (c : Dev nD) (V' : (b : Ref sig .tc) → Buf (Elt F) ((c : Thread nD τ).loc b))
    (ho : V' main_v20 = (dat V c).arrAt 4 cfg3.N) (hr : ∀ b : Ref sig .tc, b ≠ main_v20 → V' b = V c b) :
    iprop((dat V c).arrays ((dat V c).arrAt · cfg3.N) ∗ Pipeline.unscopedRest spec3 c (V c)) ⊢ (unscopedBufs c V' : sProp 𝕄) := by
  have e : ∀ w, (dat V c).arrAt w cfg3.N = V' (Pipeline.arrRef spec3 w)
    | 4 => ho.symm
    | 0 | 1 | 2 | 3 => ((dat V c).arrAt_in _ rfl _).trans (hr _ (by decide)).symm
  have hrest : (Pipeline.unscopedRest spec3 c (V c) : sProp 𝕄) = Pipeline.unscopedRest spec3 c V' :=
    bigSep_congr fun b hb => by
      rw [hr b fun e => (Finset.mem_sdiff.mp hb).2 (e ▸ Finset.mem_image.mpr ⟨4, Finset.mem_univ _, rfl⟩)]
  rw [split₀ c V', hrest]; exact sep_mono (arrays_iff V c _ _ e).2 .rfl

end Cert.KernelIdeal.Hand.R3

end
-- ==== Proof.Hand.KI.Run.lean ====
import proofs.«400964_j13743895347838_3_alg».proof.Proof.Gen.KernelIdeal.Regions
import proofs.«400964_j13743895347838_3_alg».proof.Proof.LibRun
import proofs.«400964_j13743895347838_3_alg».proof.Proof.Hand.KI.Reg0
import proofs.«400964_j13743895347838_3_alg».proof.Proof.Hand.KI.Reg1
import proofs.«400964_j13743895347838_3_alg».proof.Proof.Hand.KI.Reg2
import proofs.«400964_j13743895347838_3_alg».proof.Proof.Hand.KI.Reg3

noncomputable section

namespace Cert.KernelIdeal.Hand.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen Cert.KernelIdeal.Hand Cert.Hand

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers at launch, -/
abbrev W0 : Dev nD → Valuation τ sig (Elt F) := fun c b => (s₀ m ρ).mem ((c : Dev nD), b)
/-- after the first host stretch, -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- after region 0: its arrays at what the write-backs leave, -/
def W2 (c : Dev nD) : Valuation τ sig (Elt F) :=
  Pipeline.withArrays spec0 c (W1 m ρ c) fun w => (R0.dat (V1 m ρ) c).arrAt w cfg0.N
abbrev V2 : (c : Dev nD) → (b : Ref sig .tc) → Buf (Elt F) ((c : Thread nD τ).loc b) := fun c b => W2 m ρ c b
/-- after region 1, -/
def W3 (c : Dev nD) : Valuation τ sig (Elt F) :=
  Pipeline.withArrays spec1 c (W2 m ρ c) fun w => (R1.dat (V2 m ρ) c).arrAt w cfg1.N
abbrev V3 : (c : Dev nD) → (b : Ref sig .tc) → Buf (Elt F) ((c : Thread nD τ).loc b) := fun c b => W3 m ρ c b
/-- after region 2, -/
def W4 (c : Dev nD) : Valuation τ sig (Elt F) :=
  Pipeline.withArrays spec2 c (W3 m ρ c) fun w => (R2.dat (V3 m ρ) c).arrAt w cfg2.N
/-- after the second host stretch, -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
/-- and after region 3, two of whose windows read one array: only the result array changes. -/
def W6 (c : Dev nD) : Valuation τ sig (Elt F) :=
  Function.update (W5 m ρ c) (Proc.devRef .tc main_v20) ((R3.dat (V5 m ρ) c).arrAt 4 cfg3.N)

theorem W2_arr (c : Dev nD) (w : Fin cfg0.W) : W2 m ρ c (Proc.devRef .tc (Pipeline.arrRef spec0 w)) = (R0.dat (V1 m ρ) c).arrAt w cfg0.N :=
  Pipeline.withArrays_arr spec0 launch0.win.arr_inj c _ _ w
theorem W3_arr (c : Dev nD) (w : Fin cfg1.W) : W3 m ρ c (Proc.devRef .tc (Pipeline.arrRef spec1 w)) = (R1.dat (V2 m ρ) c).arrAt w cfg1.N :=
  Pipeline.withArrays_arr spec1 launch1.win.arr_inj c _ _ w
theorem W4_arr (c : Dev nD) (w : Fin cfg2.W) : W4 m ρ c (Proc.devRef .tc (Pipeline.arrRef spec2 w)) = (R2.dat (V3 m ρ) c).arrAt w cfg2.N :=
  Pipeline.withArrays_arr spec2 launch2.win.arr_inj c _ _ w
theorem W2_keep (c : Dev nD) (b : Ref sig .tc) (hb : ∀ w, Pipeline.arrRef spec0 w = b → (cfg0.win w).isOut = false) :
    W2 m ρ c (Proc.devRef .tc b) = W1 m ρ c (Proc.devRef .tc b) :=
  reg_keep cfg0 (R0.dat (V1 m ρ) c) launch0.win.arr_inj _ (R0.A_eq (V1 m ρ) c) b hb
theorem W3_keep (c : Dev nD) (b : Ref sig .tc) (hb : ∀ w, Pipeline.arrRef spec1 w = b → (cfg1.win w).isOut = false) :
    W3 m ρ c (Proc.devRef .tc b) = W2 m ρ c (Proc.devRef .tc b) :=
  reg_keep cfg1 (R1.dat (V2 m ρ) c) launch1.win.arr_inj _ (R1.A_eq (V2 m ρ) c) b hb
theorem W4_keep (c : Dev nD) (b : Ref sig .tc) (hb : ∀ w, Pipeline.arrRef spec2 w = b → (cfg2.win w).isOut = false) :
    W4 m ρ c (Proc.devRef .tc b) = W3 m ρ c (Proc.devRef .tc b) :=
  reg_keep cfg2 (R2.dat (V3 m ρ) c) launch2.win.arr_inj _ (R2.A_eq (V3 m ρ) c) b hb
theorem W6_of_ne (c : Dev nD) (b : Ref sig .tc) (hb : b ≠ main_v20) : W6 m ρ c (Proc.devRef .tc b) = W5 m ρ c (Proc.devRef .tc b) :=
  Function.update_of_ne (StableHlo.devRef_ne_of_ne hb) ..

/-- A buffer that no host operation writes and that is no region's output array ends as launched. -/
theorem W6_kept (c : Dev nD) (b : Ref sig .tc) (h6 : b ≠ main_v20) (h5 : b ∉ hostOps3_W)
    (h4 : ∀ w, Pipeline.arrRef spec2 w = b → (cfg2.win w).isOut = false) (h3 : ∀ w, Pipeline.arrRef spec1 w = b → (cfg1.win w).isOut = false)
    (h2 : ∀ w, Pipeline.arrRef spec0 w = b → (cfg0.win w).isOut = false) (h1 : b ∉ hostOps0_W) :
    W6 m ρ c (Proc.devRef .tc b) = m ((c : Thread nD τ).loc b) :=
  (W6_of_ne m ρ c b h6).trans <| (StableHlo.after_of_writes_sub hostOps3 _ hostOps3_writes h5).trans <|
    (W4_keep m ρ c b h4).trans <| (W3_keep m ρ c b h3).trans <| (W2_keep m ρ c b h2).trans <|
    StableHlo.after_of_writes_sub hostOps0 _ hostOps0_writes h1

/-- Every region's proof data, each at the contents its region is entered with. -/
def pdats : (p : Fin 4) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V2 m ρ) c
  | ⟨2, _⟩ => fun c => R2.dat (V3 m ρ) c
  | ⟨3, _⟩ => fun c => R3.dat (V5 m ρ) c
abbrev L : GSem nD τ sig → Finset Unit := fun _ => ∅
abbrev lv : GSem nD τ sig → Unit → ℕ := fun _ _ => 0

set_option backward.isDefEq.respectTransparency.types false in
/-- @main as segments: the two host stretches and the four regions, each between its two boundary contents. -/
abbrev segs : List (Pipeline.Seg (pcfgs (F := F)) adm (pdats m ρ) () defs₀ Variants.none L lv) :=
  [ .host (hseg hostOps0 hostOps0_sub hostOps0_fresh (W0 m ρ)),
    .region (regKit cfgs (pdats m ρ) defs₀ _ L lv 0 launch0 (W1 m ρ) (R0.body_obligation (V1 m ρ)) (fun _ _ => rfl) (fun _ _ => trivial)
      (fun _ _ => rfl) (fun _ _ => rfl) (R0.hin (V1 m ρ)) (R0.hout (V1 m ρ))),
    .region (regKit cfgs (pdats m ρ) defs₀ _ L lv 1 launch1 (W2 m ρ) (R1.body_obligation (V2 m ρ)) (fun _ _ => rfl) (fun _ _ => trivial)
      (fun _ _ => rfl) (fun _ _ => rfl) (R1.hin (V2 m ρ)) (R1.hout (V2 m ρ))),
    .region (regKit cfgs (pdats m ρ) defs₀ _ L lv 2 launch2 (W3 m ρ) (R2.body_obligation (V3 m ρ)) (fun _ _ => rfl) (fun _ _ => trivial)
      (fun _ _ => rfl) (fun _ _ => rfl) (R2.hin (V3 m ρ)) (R2.hout (V3 m ρ))),
    .host (hseg hostOps3 hostOps3_sub hostOps3_fresh (W4 m ρ)),
    .region (regOf cfgs (pdats m ρ) defs₀ _ L lv 3 winFacts₀3 block_pos3 stage_whole3 (W5 m ρ) (W6 m ρ) (R3.body_obligation (V5 m ρ))
      (fun _ _ => rfl) (fun _ _ => trivial) (R3.hin (V5 m ρ)) (R3.hout (V5 m ρ)) (R3.entry_split (V5 m ρ))
      fun c => R3.exit_join (V5 m ρ) c (fun b => W6 m ρ c b) (Function.update_self ..) fun b hb => W6_of_ne m ρ c b hb) ]

set_option backward.isDefEq.respectTransparency.types false in
/-- Every weakly fair execution of @main terminates, nothing faulting, with every unscoped buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  run_held cfgs cellOf_inj (pdats m ρ) defs₀ _ L lv (fun _ _ => rfl) m ρ main (segs m ρ)
    (fun c => (main_chain c).trans (by chain_rfl))
    (by simp only [segs, Pipeline.Seg.pipes_host, Pipeline.Seg.pipes_region, Pipeline.Seg.pipes_nil]; decide) (W6 m ρ)
    ⟨fun _ => .rfl, fun _ => .rfl, fun _ => .rfl, fun _ => .rfl, fun _ => .rfl, fun _ => .rfl, fun _ => .rfl⟩

/-- The result array ends at what region 3's write-backs leave, every argument as launched. -/
theorem run_result : θ_run defs (onTc (τ := τ) (main (F := F))) ⟨m, fun _ => 0, ρ⟩ (fun r => ∀ c : Dev nD,
      r.2.mem ((c.tc : Thread nD τ).loc main_v20) = (R3.dat (V5 m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => by
    refine ⟨(h c main_v20 (by decide)).trans (Function.update_self ..), ?_, ?_, ?_, ?_, ?_, ?_, ?_, ?_⟩ <;>
      exact (h c _ (by decide)).trans (W6_kept m ρ c _ (by decide) (by decide) (by decide) (by decide) (by decide) (by decide)))
    (run_all m ρ)

end Cert.KernelIdeal.Hand.Run

end
-- ==== Proof.Hand.KI.Val0.lean ====
/- Lemmas every region's value shares (split products of real blocks, reads of real arrays, the partial sums of an accumulated product), and region 0: x · W1. -/
import proofs.«400964_j13743895347838_3_alg».proof.Proof.Hand.Spec
import proofs.«400964_j13743895347838_3_alg».proof.Proof.Hand.KI.Blocks
import proofs.«400964_j13743895347838_3_alg».proof.Proof.LibRun

noncomputable section

namespace Cert.KernelIdeal.Hand.V0

open Idealize.ShloMosaic Idealize.ShloMosaic.TcCoe Idealize.ShloMosaic.Tactic
open Idealize.ShloMosaic.Pipeline (Dat Cfg Window)
open Cert.KernelIdeal Cert.KernelIdeal.Gen
open Cert.KernelIdeal.Hand Cert.Spec Idealize.ShloMosaic.ValueIdx

/-- Reading real numbers as extended reals commutes with finite sums: induction on the index set. -/
theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The low half of a real entry: the entry minus itself. -/
theorem coe_sub_self (x : ℝ) : ((x : ℝ) : EReal) - ((x : ℝ) : EReal) = 0 := by
  rw [← EReal.coe_sub, sub_self, EReal.coe_zero]

/-- High × high + high × low + low × high, the low halves zero, is the exact sum of products. -/
theorem x3 {n : ℕ} (f g : ℕ → ℝ) (u v : Fin n → EReal) (hu : ∀ k, u k = 0) (hv : ∀ k, v k = 0) :
    (∑ k : Fin n, ((f k : ℝ) : EReal) * ((g k : ℝ) : EReal)) + (∑ k : Fin n, ((f k : ℝ) : EReal) * v k)
        + (∑ k : Fin n, u k * ((g k : ℝ) : EReal)) = ((∑ k ∈ Finset.range n, f k * g k : ℝ) : EReal) := by
  simp only [hu, hv, mul_zero, zero_mul, Finset.sum_const_zero, add_zero]
  rw [← Fin.sum_univ_eq_sum_range (fun k => f k * g k) n, coe_sum]
  exact Finset.sum_congr rfl fun k _ => (EReal.coe_mul _ _).symm

/-- The split product of two blocks with real entries, at (p, q): the exact product over the contracted axis. -/
theorem mm3 {M K N : ℕ} (d : DotDims ⟨2, ![M, K]⟩ ⟨2, ![K, N]⟩ ⟨2, ![M, N]⟩) (hd : d = .plain M K N)
    (a : FVec Ideal ⟨2, ![M, K]⟩ .f32) (b : FVec Ideal ⟨2, ![K, N]⟩ .f32) (h : FTy.bf16.bits < FTy.f32.bits)
    (f g : ℕ → ℕ → ℝ) (p : Fin M) (q : Fin N)
    (ha : ∀ k : Fin K, a (ix2 p k) = ((f p k : ℝ) : EReal)) (hb : ∀ k : Fin K, b (ix2 k q) = ((g k q : ℝ) : EReal)) :
    addf (addf (matmul d none (truncf .bf16 a h) (truncf .bf16 b h) (constant (F := Ideal) _ .f32 0x00000000#32))
        (matmul d none (truncf .bf16 a h) (truncf .bf16 (subf b b) h) (constant (F := Ideal) _ .f32 0x00000000#32)))
      (matmul d none (truncf .bf16 (subf a a) h) (truncf .bf16 b h) (constant (F := Ideal) _ .f32 0x00000000#32)) (ix2 p q)
      = ((mm K f g p q : ℝ) : EReal) := by
  simp only [addf_apply, matmul, Cert.Hand.matmul_ix2 d hd, truncf_apply, subf_apply, ha, hb]
  exact x3 (f p) (fun k => g k q) _ _ (fun _ => coe_sub_self _) (fun _ => coe_sub_self _)

/-- A real array read at an index whose two coordinates are known. -/
theorem coe2_at {a b : ℕ} {A : (⟨2, ![a, b]⟩ : Shape).Idx → EReal} {f : ℕ → ℕ → ℝ} (h : A = coe2 f)
    {e : (⟨2, ![a, b]⟩ : Shape).Idx} {r s : ℕ} (hr : (e 0).val = r) (hs : (e 1).val = s) : A e = ((f r s : ℝ) : EReal) := by
  subst h hr hs; rfl

/-- Two arrays of two axes agree when they agree at every pair of coordinates. -/
theorem ext2 {a b : ℕ} {α : Type} {f g : (⟨2, ![a, b]⟩ : Shape).Idx → α} (h : ∀ p q, f (ix2 p q) = g (ix2 p q)) : f = g :=
  funext fun j => by rw [eq_ix2 j]; exact h _ _

/-- The same read from the array's side: what a point writes back at a block entry is the array's entry under it. -/
theorem at_coe2 {a b : ℕ} (f : ℕ → ℕ → ℝ) (e : (⟨2, ![a, b]⟩ : Shape).Idx) {r s : ℕ} (hr : (e 0).val = r) (hs : (e 1).val = s) :
    ((f r s : ℝ) : EReal) = coe2 f e := (coe2_at rfl hr hs).symm

/-- Along a row of J column blocks of width B the accumulator holds, after point n, the first B (n % J + 1) terms of the row block's product. -/
def part (J B : ℕ) (A t : ℕ → ℕ → ℝ) (n p q : ℕ) : ℝ :=
  ∑ s ∈ Finset.range (B * (n % J + 1)), A (2048 * (n / J) + p) s * t s q

/-- At the last point of a row the partial sum is the whole product. -/
theorem part_last {J B K : ℕ} (A t : ℕ → ℕ → ℝ) (n : ℕ) (h : B * (n % J + 1) = K) (p q : ℕ) :
    part J B A t n p q = mm K A t (2048 * (n / J) + p) q := by
  unfold part mm; rw [h]

/-- An accumulator that restarts from zero at the multiples of J and adds one column block's product at every point holds the partial sums: induction on the point. -/
theorem acc_part {N J B C : ℕ} (A t : ℕ → ℕ → ℝ) (hdiv : ∀ m, (m + 1) % J ≠ 0 → (m + 1) / J = m / J ∧ (m + 1) % J = m % J + 1)
    (acc : (n : ℕ) → n < N → (⟨2, ![2048, C]⟩ : Shape).Idx → EReal)
    (step : (n : ℕ) → n < N → ((⟨2, ![2048, C]⟩ : Shape).Idx → EReal) → (⟨2, ![2048, C]⟩ : Shape).Idx → EReal)
    (z : (⟨2, ![2048, C]⟩ : Shape).Idx → EReal) (hz : ∀ i, z i = 0)
    (hreset : ∀ t : Fin N, t.val % J = 0 → acc t.val t.isLt = step t.val t.isLt z)
    (hstep : ∀ t : Fin N, t.val % J ≠ 0 →
      acc t.val t.isLt = step t.val t.isLt (acc (t.val - 1) (Nat.lt_of_le_of_lt (Nat.sub_le _ _) t.isLt)))
    (hs : ∀ n h v (p : Fin 2048) (q : Fin C), step n h v (ix2 p q) = v (ix2 p q)
      + ((mm B (fun p k => A (2048 * (n / J) + p) (B * (n % J) + k)) (fun k q => t (B * (n % J) + k) q) p q : ℝ) : EReal)) :
    ∀ n h (p : Fin 2048) (q : Fin C), acc n h (ix2 p q) = ((part J B A t n p q : ℝ) : EReal) := by
  have reset : ∀ n h, n % J = 0 → ∀ (p : Fin 2048) (q : Fin C), acc n h (ix2 p q) = ((part J B A t n p q : ℝ) : EReal) := by
    intro n h hm p q
    rw [hreset ⟨n, h⟩ hm, hs, hz, zero_add]
    unfold part mm
    simp only [hm, Nat.mul_zero, Nat.zero_add, Nat.mul_one]
  intro n
  induction n with
  | zero => exact fun h => reset 0 h (Nat.zero_mod J)
  | succ m ih =>
    intro h p q
    by_cases hm : (m + 1) % J = 0
    · exact reset (m + 1) h hm p q
    · obtain ⟨h1, h2⟩ := hdiv m hm
      refine (congrFun (hstep ⟨m + 1, h⟩ hm) _).trans ((hs _ _ _ p q).trans ?_)
      refine (congrArg (· + _) (ih (Nat.lt_of_succ_lt h) p q)).trans ?_
      rw [← EReal.coe_add]
      unfold part mm
      rw [h1, h2, Nat.mul_succ B (m % J + 1), Finset.sum_range_add]

/-- The pattern of positive zero, broadcast, is zero at every entry. -/
theorem zero_apply {s : Shape} (i : s.Idx) : broadcast s (Scalar.ofBits .f32 0x00000000#32 : Ideal .f32) i = 0 :=
  Ideal.ofBits_zero_f32

/-- So is the block an accumulator is reset to: that broadcast recast to its own shape. -/
theorem reset_apply {s : Shape} (h : s.ShapeCasts s) (i : s.Idx) :
    shapeCast s (broadcast s (Scalar.ofBits .f32 0x00000000#32 : Ideal .f32)) h i = 0 := by
  rw [shapeCast_self]; exact Ideal.ofBits_zero_f32

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One accumulation step of region 0 on real blocks: the accumulator's entry plus the exact block product. -/
theorem pay2 (v3 : Vec Ideal S2048x256 .f32) (v4 : Vec Ideal S2048x512 .f32) (v5 : Vec Ideal S512x256 .f32) (f g : ℕ → ℕ → ℝ)
    (h4 : (v4 : S2048x512.Idx → EReal) = coe2 f) (h5 : (v5 : S512x256.Idx → EReal) = coe2 g) (p : Fin 2048) (q : Fin 256) :
    k0_pay2 v3 v4 v5 (ix2 p q) = v3 (ix2 p q) + ((mm 512 f g p q : ℝ) : EReal) := by
  subst h4 h5
  unfold k0_pay2
  simp only [shapeCast_self]
  exact (addf_apply _ _ _).trans (congrArg _ (mm3 _ rfl _ _ _ f g p q (fun _ => rfl) fun _ => rfl))

/-- Every row of the result lies in the block of the point that writes it back. -/
theorem cover (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ : ∃ t : Fin cfg0.N, t.val = (i 0).val / 2048 :=
    ⟨⟨(i 0).val / 2048, by have : cfg0.N = 4 := N_0; omega⟩, rfl⟩
  obtain ⟨-, -, -, -, e4, e5⟩ := idx0 t
  refine ⟨t, flush0_2 t, ?_⟩
  show i ∈ ((View.whole main_v13).slice (win0_2.rect t)).set
  rw [View.set_slice_whole]
  exact Rect.mem_set_unit.mpr (Fin.forall_fin_two.mpr
    ⟨by show win0_2.index t (0 : Fin 2) * 2048 ≤ (i 0).val ∧ (i 0).val < win0_2.index t (0 : Fin 2) * 2048 + 2048; omega,
     by show win0_2.index t (1 : Fin 2) * 256 ≤ (i 1).val ∧ (i 1).val < win0_2.index t (1 : Fin 2) * 256 + 256; omega⟩)

/-- Region 0 leaves x · W1 in its result array when x and W1 are real on entry. -/
theorem value (V : (c : Dev nD) → (b : Ref sig .tc) → Buf (Elt Ideal) ((c : Thread nD τ).loc b)) (c : Dev nD)
    (dat : Dat τ (Elt Ideal) Unit ℕ (UR sig nD τ) ℕ cfg0 c)
    (hout : ∀ t : Fin cfg0.N, dat.after 2 t = k0_pay2 (k0_pay1 (F := Ideal)) (iblk0 V c 0 t) (iblk0 V c 1 t))
    (xr W1r : ℕ → ℕ → ℝ)
    (hx : (V c main_arg0 : S8192x512.Idx → EReal) = coe2 xr) (hW : (V c main_arg5 : S512x256.Idx → EReal) = coe2 W1r) :
    (dat.arrAt 2 cfg0.N : S8192x256.Idx → EReal) = coe2 (mm 512 xr W1r) :=
  dat.arrAt_eq_of_cover 2 (coe2 (mm 512 xr W1r) : S8192x256.Idx → EReal) (fun t _ => by
    obtain ⟨e0, e1, e2, e3, e4, e5⟩ := idx0 t
    show (cfg0.win 2).cut (grid0.coords t) (dat.after 2 t) = _
    rw [hout t]
    refine ext2 (a := 2048) (b := 256) fun p q => ?_
    show _ = (coe2 (mm 512 xr W1r) : S8192x256.Idx → EReal) (((cfg0.win 2).blk t).view.emb (ix2 p q))
    refine (pay2 _ _ _ (fun p k => xr (2048 * t.val + p) k) W1r
      (funext fun y => coe2_at hx (by show win0_0.index t (0 : Fin 2) * 2048 + 1 * (y 0).val = _; omega)
        (by show win0_0.index t (1 : Fin 2) * 512 + 1 * (y 1).val = _; omega))
      (funext fun y => coe2_at hW (by show win0_1.index t (0 : Fin 2) * 512 + 1 * (y 0).val = _; omega)
        (by show win0_1.index t (1 : Fin 2) * 256 + 1 * (y 1).val = _; omega)) p q).trans ?_
    rw [show k0_pay1 (F := Ideal) (ix2 p q) = 0 from reset_apply _ _, zero_add]
    exact at_coe2 (mm 512 xr W1r) _ (by show win0_2.index t (0 : Fin 2) * 2048 + 1 * p.val = _; omega)
      (by show win0_2.index t (1 : Fin 2) * 256 + 1 * q.val = _; omega)) cover

end Cert.KernelIdeal.Hand.V0

end
-- ==== Proof.Hand.KI.Host.lean ====
/- The two host stretches at the exact values: the adjacency matrix and the head matrices before region 0, the split of the latent code before region 3. -/
import proofs.«400964_j13743895347838_3_alg».proof.Proof.Hand.KI.Val0
import Idealize.ShloMosaic.Lib.StableHlo.Predicate

noncomputable section

namespace Cert.KernelIdeal.Hand.Host

open Idealize.ShloMosaic Idealize.ShloMosaic.TcCoe Idealize.ShloMosaic.Tactic
open Cert.KernelIdeal Cert.KernelIdeal.Gen
open Cert.Spec Idealize.ShloMosaic.ValueIdx

/-- The leading part of the split is the code itself: the narrower format keeps an exact value. -/
theorem host3_hi (W : Valuation τ sig (Elt Ideal)) (zr : ℕ → ℕ → ℝ)
    (h : (W (Proc.devRef .tc main_v15) : S8192x64.Idx → EReal) = coe2 zr) :
    (StableHlo.after hostOps3 W (Proc.devRef .tc main_v16) : S8192x64.Idx → EReal) = coe2 zr := by
  have e : (StableHlo.after hostOps3 W (Proc.devRef .tc main_v16) : S8192x64.Idx → EReal)
      = (truncf .bf16 (W (Proc.devRef .tc main_v15) : FVec Ideal S8192x64 .f32) bitsLt_bf16_f32 : FVec Ideal S8192x64 .bf16) := by
    after_results
  exact e.trans h

/-- The remainder of the split is zero: each entry minus itself. -/
theorem host3_lo (W : Valuation τ sig (Elt Ideal)) (zr : ℕ → ℕ → ℝ)
    (h : (W (Proc.devRef .tc main_v15) : S8192x64.Idx → EReal) = coe2 zr) :
    (StableHlo.after hostOps3 W (Proc.devRef .tc main_v19) : S8192x64.Idx → EReal) = coe2 (fun _ _ => 0) := by
  have e : (StableHlo.after hostOps3 W (Proc.devRef .tc main_v19) : S8192x64.Idx → EReal)
      = (truncf .bf16 (subf (W (Proc.devRef .tc main_v15) : FVec Ideal S8192x64 .f32)
          (extf .f32 (truncf .bf16 (W (Proc.devRef .tc main_v15) : FVec Ideal S8192x64 .f32) bitsLt_bf16_f32 : FVec Ideal S8192x64 .bf16) bitsLt_bf16_f32 : FVec Ideal S8192x64 .f32) : FVec Ideal S8192x64 .f32)
          bitsLt_bf16_f32 : FVec Ideal S8192x64 .bf16) := by
    after_results
  exact e.trans (funext fun i => by
    rw [truncf_apply, subf_apply, extf_apply, truncf_apply, h, coe2_apply, coe2_apply, ← EReal.coe_sub, sub_self])

/-- The two head matrices side by side are `cat` of the two: a column is among the first 64 or past them. -/
theorem host0_cat (W : Valuation τ sig (Elt Ideal)) (W2r W3r : ℕ → ℕ → ℝ)
    (h6 : (W (Proc.devRef .tc main_arg6) : S256x64.Idx → EReal) = coe2 W2r)
    (h7 : (W (Proc.devRef .tc main_arg7) : S256x64.Idx → EReal) = coe2 W3r) :
    (StableHlo.after hostOps0 W (Proc.devRef .tc main_v12) : S256x128.Idx → EReal) = coe2 (cat W2r W3r) := by
  have e : (StableHlo.after hostOps0 W (Proc.devRef .tc main_v12) : S256x128.Idx → EReal)
      = concatenate S256x128 1 [⟨S256x64, (W (Proc.devRef .tc main_arg6) : S256x64.Idx → EReal)⟩,
          ⟨S256x64, (W (Proc.devRef .tc main_arg7) : S256x64.Idx → EReal)⟩] concatenates_S256x64_S256x64_S256x128_d1 := by
    after_results
  rw [e, h6, h7]
  funext j
  rw [coe2_apply]
  have hj0 : (j 0).val < 256 := idx2_lt0 j
  have hj1 : (j 1).val < 128 := idx2_lt1 j
  by_cases hj : (j 1).val < 64
  · rw [concatenate_pair_apply_left (t := S256x128) (s₁ := S256x64) (s₂ := S256x64) (1 : Fin 2)
        (coe2 W2r : S256x64.Idx → EReal) (coe2 W3r : S256x64.Idx → EReal) concatenates_S256x64_S256x64_S256x128_d1 j rfl
        (ix2 (n0 := 256) (n1 := 64) ⟨(j 0).val, hj0⟩ ⟨(j 1).val, hj⟩) (fun b => match b with | ⟨0, _⟩ => rfl | ⟨1, _⟩ => rfl)]
    exact congrArg (fun r : ℝ => (r : EReal)) (if_pos hj).symm
  · have hj' : (j 1).val - 64 < 64 := by omega
    rw [concatenate_pair_apply_right (t := S256x128) (s₁ := S256x64) (s₂ := S256x64) (1 : Fin 2)
        (coe2 W2r : S256x64.Idx → EReal) (coe2 W3r : S256x64.Idx → EReal) concatenates_S256x64_S256x64_S256x128_d1 j rfl rfl
        (ix2 (n0 := 256) (n1 := 64) ⟨(j 0).val, hj0⟩ ⟨(j 1).val - 64, hj'⟩)
        (fun b => match b with | ⟨0, _⟩ => fun _ => rfl | ⟨1, _⟩ => fun hb => absurd rfl hb)
        (by show (j 1).val - 64 + 64 = (j 1).val; omega)]
    exact congrArg (fun r : ℝ => (r : EReal)) (if_neg hj).symm

/-- With both node indices below 8192 the word dst · 8192 + src does not wrap. -/
theorem flat_toNat (d s : BitVec 32) (hd : d.toNat < 8192) (hs : s.toNat < 8192) :
    (IntOp.addi (IntOp.muli d 8192#32) s).toNat = 8192 * d.toNat + s.toNat := by
  show (d * 8192#32 + s).toNat = _
  rw [BitVec.toNat_add, BitVec.toNat_mul]
  have h8 : (8192#32 : BitVec 32).toNat = 8192 := rfl
  rw [h8]
  omega

/-- Such a word is not negative, so the correction for a negative index leaves it alone. -/
theorem flat_select (d s : BitVec 32) (hd : d.toNat < 8192) (hs : s.toNat < 8192) :
    Scalar.select (IntOp.cmpi .slt (IntOp.addi (IntOp.muli d 8192#32) s) 0#32)
      (IntOp.addi (IntOp.addi (IntOp.muli d 8192#32) s) 67108864#32) (IntOp.addi (IntOp.muli d 8192#32) s)
      = IntOp.addi (IntOp.muli d 8192#32) s := by
  have hv := flat_toNat d s hd hs
  have hc : IntOp.cmpi .slt (IntOp.addi (IntOp.muli d 8192#32) s) 0#32 = 0#1 := by
    refine eq_zero_of_ne_one fun h1 => ?_
    have := (StableHlo.Predicate.slt_iff_toNat (a := IntOp.addi (IntOp.muli d 8192#32) s) (b := 0#32)
      (by rw [hv]; omega) (by decide)).1 h1
    exact absurd this (Nat.not_lt_zero _)
  rw [hc, select_zero]

/-- Read signed it is the same natural number. -/
theorem flat_toInt (d s : BitVec 32) (hd : d.toNat < 8192) (hs : s.toNat < 8192) :
    (IntOp.addi (IntOp.muli d 8192#32) s).toInt = ((8192 * d.toNat + s.toNat : ℕ) : Int) := by
  rw [StableHlo.Predicate.toInt_eq_toNat_of_lt (by rw [flat_toNat d s hd hs]; omega), flat_toNat d s hd hs]

/-- A sum over the index set of the edge arrays, filtered by the edge number, is the sum over the numbers below 524288. -/
theorem sum_edges (p : ℕ → Prop) [DecidablePred p] (f : ℕ → EReal) :
    (∑ j ∈ (Finset.univ : Finset S524288.Idx).filter (fun j => p (j 0).val), f (j 0).val)
      = ∑ e ∈ (Finset.range 524288).filter p, f e := by
  refine Finset.sum_bij (fun j _ => (j 0).val) ?_ ?_ ?_ ?_
  · intro j hj
    rw [Finset.mem_filter] at hj ⊢
    exact ⟨Finset.mem_range.2 (j 0).isLt, hj.2⟩
  · intro j₁ _ j₂ _ h
    rw [eq_ix1 j₁, eq_ix1 j₂]
    exact congrArg ix1 (Fin.ext h)
  · intro e he
    rw [Finset.mem_filter, Finset.mem_range] at he
    exact ⟨ix1 ⟨e, he.1⟩, Finset.mem_filter.2 ⟨Finset.mem_univ _, he.2⟩, rfl⟩
  · intro j _
    rfl

/-- The scatter of the edge weights: a flat operand, one index word an update, the operand's axis inserted. -/
abbrev sd := scatter_S67108864_S524288x1_S524288_n_0_0_1

/-- The index word update j reads: row j of the one-column table. -/
abbrev rowOf (j : S524288.Idx) : S524288x1.Idx := ix2 (n0 := 524288) (n1 := 1) (j 0) 0

/-- Update j starts at its index word, read signed. -/
theorem start_eq (idx : IVec S524288x1 32) (j : S524288.Idx) (a : Fin S67108864.rank) :
    sd.start j idx a = (idx (rowOf j)).toInt := by
  obtain rfl : a = 0 := Subsingleton.elim _ _
  unfold ScatterDims.start
  rw [dif_pos (show (0 : Fin S67108864.rank) ∈ sd.scatterDimsToOperandDims from List.mem_singleton.mpr rfl)]
  congr 2
  funext b
  apply Fin.ext
  match b with
  | ⟨0, hb0⟩ =>
    unfold ScatterDims.siIdx
    split
    · next hb => exact absurd hb (show ¬ (0 : ℕ) = 1 from by decide)
    · unfold ScatterDims.siCoord
      simp only [Fin.val_cast]
      exact congrArg (fun x => (j x).val) (Subsingleton.elim _ _)
  | ⟨1, hb1⟩ =>
    unfold ScatterDims.siIdx
    split
    · rfl
    · next hb => exact absurd rfl hb

/-- An update has no offset of its own on the inserted axis. -/
theorem window_eq (j : S524288.Idx) (a : Fin S67108864.rank) : sd.window j a = 0 := by
  unfold ScatterDims.window
  rw [dif_neg (by revert a; decide)]

/-- Update j lands on element i exactly when its index word, read signed, is i's position. -/
theorem lands_iff (idx : IVec S524288x1 32) (j : S524288.Idx) (i : S67108864.Idx) :
    sd.resultIdx? j idx = some i ↔ (idx (rowOf j)).toInt = ((i 0).val : Int) := by
  have hi : (i 0).val < 67108864 := (i 0).isLt
  unfold ScatterDims.resultIdx?
  constructor
  · intro h
    split at h
    · next hall =>
      have h0 := congrFun (Option.some.inj h) 0
      have hv := congrArg Fin.val h0
      have hp := (hall 0).1
      rw [start_eq, window_eq] at hp
      simp only [start_eq, window_eq] at hv
      omega
    · exact absurd h (by simp)
  · intro h
    have hall : ∀ a, 0 ≤ sd.start j idx a + sd.window j a ∧ sd.start j idx a + sd.window j a < S67108864.size a := by
      intro a
      obtain rfl : a = 0 := Subsingleton.elim _ _
      rw [start_eq, window_eq, h]
      show (0 : Int) ≤ ((i 0).val : Int) + ((0 : ℕ) : Int) ∧ ((i 0).val : Int) + ((0 : ℕ) : Int) < ((67108864 : ℕ) : Int)
      omega
    rw [dif_pos hall]
    congr 1
    funext a
    obtain rfl : a = 0 := Subsingleton.elim _ _
    apply Fin.ext
    show (sd.start j idx 0 + sd.window j 0).toNat = (i 0).val
    rw [start_eq, window_eq, h]
    omega

/-- The flattened index words: dst · 8192 + src, with the correction of a negative index. -/
abbrev flatWords (srcA dstA : IVec S524288 32) : IVec S524288 32 :=
  select (cmpi .slt (addi (muli dstA (broadcastInDim S524288 ![] bcast_S_S524288 (constantI S_ 32 8192#32))) srcA)
      (broadcastInDim S524288 ![] bcast_S_S524288 (constantI S_ 32 0#32)))
    (addi (addi (muli dstA (broadcastInDim S524288 ![] bcast_S_S524288 (constantI S_ 32 8192#32))) srcA)
      (broadcastInDim S524288 ![] bcast_S_S524288 (constantI S_ 32 67108864#32)))
    (addi (muli dstA (broadcastInDim S524288 ![] bcast_S_S524288 (constantI S_ 32 8192#32))) srcA)

/-- With node indices in range no correction applies. -/
theorem flatWords_apply (srcA dstA : IVec S524288 32) (hs : InRange srcA) (hd : InRange dstA) (j : S524288.Idx) :
    flatWords srcA dstA j = IntOp.addi (IntOp.muli (dstA j) 8192#32) (srcA j) :=
  flat_select (dstA j) (srcA j) (hd j) (hs j)

/-- Row j of the one-column table is the word of edge j. -/
theorem column_apply (v : IVec S524288 32) (j : S524288.Idx) :
    broadcastInDim S524288x1 ![0] bcast_S524288_S524288x1_0 v (rowOf j) = v j :=
  broadcastInDim_apply _ _ v (rowOf j) j fun a => by
    obtain rfl : a = 0 := Subsingleton.elim _ _
    show (j 0).val = if (524288 : ℕ) = 1 then 0 else (j 0).val
    rw [if_neg (by decide)]

/-- An edge array's word at j, read as a natural number, is `natOf` at j's coordinate. -/
theorem natOf_idx (a : S524288.Idx → BitVec 32) (j : S524288.Idx) : natOf a (j 0).val = (a j).toNat := by
  unfold natOf
  rw [dif_pos (show (j 0).val < 524288 from (j 0).isLt)]
  exact congrArg (fun x => (a x).toNat) (eq_ix1 j).symm

/-- Edge j lands on flat position 8192 n + s exactly when it goes from node s to node n. -/
theorem edge_lands_iff (srcA dstA : IVec S524288 32) (hs : InRange srcA) (hd : InRange dstA) (j : S524288.Idx)
    (n s : ℕ) (hn : n < 8192) (hs' : s < 8192) (k : S67108864.Idx) (hk : (k 0).val = 8192 * n + s) :
    sd.resultIdx? j (broadcastInDim S524288x1 ![0] bcast_S524288_S524288x1_0 (flatWords srcA dstA)) = some k
      ↔ (natOf dstA (j 0).val = n ∧ natOf srcA (j 0).val = s) := by
  rw [lands_iff, column_apply, flatWords_apply srcA dstA hs hd, flat_toInt _ _ (hd j) (hs j), natOf_idx, natOf_idx, hk]
  have h1 := hd j
  have h2 := hs j
  omega

/-- The scatter-add of the edge weights on the flattened index, reshaped to a square, is the weighted adjacency matrix. -/
theorem host0_adj (W : Valuation τ sig (Elt Ideal)) (wr : ℕ → ℝ)
    (h3 : (W (Proc.devRef .tc main_arg3) : S524288.Idx → EReal) = coe1 wr)
    (hs : InRange (W (Proc.devRef .tc main_arg1))) (hd : InRange (W (Proc.devRef .tc main_arg2))) :
    (StableHlo.after hostOps0 W (Proc.devRef .tc main_v11) : S8192x8192.Idx → EReal)
      = coe2 (adj (natOf (W (Proc.devRef .tc main_arg1))) (natOf (W (Proc.devRef .tc main_arg2))) wr) := by
  have e : (StableHlo.after hostOps0 W (Proc.devRef .tc main_v11) : S8192x8192.Idx → EReal)
      = shapeCast S8192x8192 (Host.scatterAdd sd
          (broadcastInDim S67108864 ![] bcast_S_S67108864 (constant (F := Ideal) S_ .f32 0x00000000#32))
          (broadcastInDim S524288x1 ![0] bcast_S524288_S524288x1_0
            (flatWords (W (Proc.devRef .tc main_arg1)) (W (Proc.devRef .tc main_arg2))))
          (W (Proc.devRef .tc main_arg3) : S524288.Idx → EReal)) shapeCasts_S67108864_S8192x8192 := by
    after_results
    rfl
  rw [e, h3]
  funext i
  have hi0 : (i 0).val < 8192 := idx2_lt0 i
  have hi1 : (i 1).val < 8192 := idx2_lt1 i
  have hk : 8192 * (i 0).val + (i 1).val < 67108864 := by omega
  rw [shapeCast_apply _ _ i (ix1 (n := 67108864) ⟨8192 * (i 0).val + (i 1).val, hk⟩)
      (by rw [Shape.rowMajor_val_one, Shape.rowMajor_val_two]
          show 8192 * (i 0).val + (i 1).val = (i 0).val * 8192 + (i 1).val
          omega)]
  rw [coe2_apply]
  simp only [Host.scatterAdd, Ideal.hostScatterAdd_def, Ideal.hostScatterAdd]
  have hz : broadcastInDim S67108864 ![] bcast_S_S67108864 (constant (F := Ideal) S_ .f32 0x00000000#32)
      (ix1 (n := 67108864) ⟨8192 * (i 0).val + (i 1).val, hk⟩) = 0 := Ideal.ofBits_zero_f32
  rw [hz, zero_add]
  rw [Finset.filter_congr (fun j _ => edge_lands_iff _ _ hs hd j (i 0).val (i 1).val hi0 hi1 _ rfl)]
  show (∑ j ∈ (Finset.univ : Finset S524288.Idx).filter
        (fun j => natOf (W (Proc.devRef .tc main_arg2)) (j 0).val = (i 0).val ∧ natOf (W (Proc.devRef .tc main_arg1)) (j 0).val = (i 1).val),
        ((wr (j 0).val : ℝ) : EReal)) = _
  rw [sum_edges (fun e => natOf (W (Proc.devRef .tc main_arg2)) e = (i 0).val ∧ natOf (W (Proc.devRef .tc main_arg1)) e = (i 1).val)
      (fun e => ((wr e : ℝ) : EReal))]
  exact (V0.coe_sum _ _).symm

end Cert.KernelIdeal.Hand.Host

end
-- ==== Proof.Hand.KI.Val1.lean ====
/- Region 1: relu(A · (x · W1)) · [W2 | W3], the product with A accumulated over eight column blocks. -/
import proofs.«400964_j13743895347838_3_alg».proof.Proof.Hand.KI.Val0

noncomputable section

namespace Cert.KernelIdeal.Hand.V1

open Idealize.ShloMosaic Idealize.ShloMosaic.TcCoe Idealize.ShloMosaic.Tactic
open Idealize.ShloMosaic.Pipeline (Dat Cfg Window)
open Cert.KernelIdeal Cert.KernelIdeal.Gen
open Cert.KernelIdeal.Hand Cert.Spec Idealize.ShloMosaic.ValueIdx
open Cert.KernelIdeal.Hand.V0 (coe2_at at_coe2 ext2 mm3 part_last acc_part zero_apply reset_apply)

/-- One accumulation step of region 1 on real blocks: the accumulator's entry plus the exact block product. -/
theorem pay2 (v3 : Vec Ideal S2048x256 .f32) (v4 : Vec Ideal S2048x1024 .f32) (v6 : Vec Ideal S1024x256 .f32) (f g : ℕ → ℕ → ℝ)
    (h4 : (v4 : S2048x1024.Idx → EReal) = coe2 f) (h6 : (v6 : S1024x256.Idx → EReal) = coe2 g) (p : Fin 2048) (q : Fin 256) :
    k1_pay2 v3 v4 v6 (ix2 p q) = v3 (ix2 p q) + ((mm 1024 f g p q : ℝ) : EReal) := by
  subst h4 h6
  unfold k1_pay2
  simp only [shapeCast_self]
  exact (addf_apply _ _ _).trans (congrArg _ (mm3 _ rfl _ _ _ f g p q (fun _ => rfl) fun _ => rfl))

/-- The positive part of a real number is the same taken in the extended reals. -/
theorem max_coe_zero (x : ℝ) : max ((x : ℝ) : EReal) 0 = ((max x 0 : ℝ) : EReal) := by
  rw [EReal.coe_strictMono.monotone.map_max, EReal.coe_zero]

/-- The projection of the rectified accumulator by the weights, on real blocks. -/
theorem pay3 (v28 : Vec Ideal S2048x256 .f32) (v31 : Vec Ideal S256x128 .f32) (f g : ℕ → ℕ → ℝ)
    (h28 : (v28 : S2048x256.Idx → EReal) = coe2 f) (h31 : (v31 : S256x128.Idx → EReal) = coe2 g) (p : Fin 2048) (q : Fin 128) :
    k1_pay3 v28 v31 (ix2 p q) = ((mm 256 (fun p k => max (f p k) 0) g p q : ℝ) : EReal) := by
  subst h28 h31
  unfold k1_pay3
  simp only [shapeCast_self]
  exact mm3 _ rfl _ _ _ _ g p q (fun k => (congrArg (max _) (zero_apply _)).trans (max_coe_zero _)) fun _ => rfl

theorem idx1 : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

section
variable (V : (c : Dev nD) → (b : Ref sig .tc) → Buf (Elt Ideal) ((c : Thread nD τ).loc b)) (c : Dev nD)

/-- The adjacency block at point t = 8 i + k: rows 2048 i … and columns 1024 k … of the matrix. -/
theorem blkA (Ar : ℕ → ℕ → ℝ) (hAr : (V c main_v11 : S8192x8192.Idx → EReal) = coe2 Ar) (t : Fin cfg1.N) :
    (iblk1 V c 0 t : S2048x1024.Idx → EReal) = coe2 fun p k => Ar (2048 * (t.val / 8) + p) (1024 * (t.val % 8) + k) := by
  obtain ⟨e0, e1, -⟩ := idx1 t
  exact funext fun y => coe2_at hAr (by show win1_0.index t (0 : Fin 2) * 2048 + 1 * (y 0).val = _; omega)
    (by show win1_0.index t (1 : Fin 2) * 1024 + 1 * (y 1).val = _; omega)

/-- The block of x · W1 at that point: rows 1024 k …. -/
theorem blkT (t1r : ℕ → ℕ → ℝ) (ht1 : (V c main_v13 : S8192x256.Idx → EReal) = coe2 t1r) (t : Fin cfg1.N) :
    (iblk1 V c 1 t : S1024x256.Idx → EReal) = coe2 fun k q => t1r (1024 * (t.val % 8) + k) q := by
  obtain ⟨-, -, e2, e3, -⟩ := idx1 t
  exact funext fun y => coe2_at ht1 (by show win1_1.index t (0 : Fin 2) * 1024 + 1 * (y 0).val = _; omega)
    (by show win1_1.index t (1 : Fin 2) * 256 + 1 * (y 1).val = _; omega)
end

/-- Every row of the result lies in the block the last point of its row block writes back. -/
theorem cover (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  obtain ⟨t, ht⟩ : ∃ t : Fin cfg1.N, t.val = 8 * ((i 0).val / 2048) + 7 :=
    ⟨⟨8 * ((i 0).val / 2048) + 7, by have : cfg1.N = 32 := N_1; omega⟩, rfl⟩
  obtain ⟨-, -, -, -, -, -, e6, e7⟩ := idx1 t
  refine ⟨t, (flush1_3 t).mpr (by omega), ?_⟩
  show i ∈ ((View.whole main_v14).slice (win1_3.rect t)).set
  rw [View.set_slice_whole]
  exact Rect.mem_set_unit.mpr (Fin.forall_fin_two.mpr
    ⟨by show win1_3.index t (0 : Fin 2) * 2048 ≤ (i 0).val ∧ (i 0).val < win1_3.index t (0 : Fin 2) * 2048 + 2048; omega,
     by show win1_3.index t (1 : Fin 2) * 128 ≤ (i 1).val ∧ (i 1).val < win1_3.index t (1 : Fin 2) * 128 + 128; omega⟩)

/-- Region 1 leaves relu(A · t1) · W23 in its result array when A, t1 and W23 are real on entry. -/
theorem value (V : (c : Dev nD) → (b : Ref sig .tc) → Buf (Elt Ideal) ((c : Thread nD τ).loc b)) (c : Dev nD)
    (dat : Dat τ (Elt Ideal) Unit ℕ (UR sig nD τ) ℕ cfg1 c)
    (acc : (n : ℕ) → n < cfg1.N → Vec Ideal S2048x256 .f32)
    (hreset : ∀ t : Fin cfg1.N, t.val % 8 = 0 → acc t.val t.isLt = k1_pay2 (k1_pay1 (F := Ideal)) (iblk1 V c 0 t) (iblk1 V c 1 t))
    (hstep : ∀ t : Fin cfg1.N, t.val % 8 ≠ 0 →
      acc t.val t.isLt = k1_pay2 (acc (t.val - 1) (Nat.lt_of_le_of_lt (Nat.sub_le _ _) t.isLt)) (iblk1 V c 0 t) (iblk1 V c 1 t))
    (hout : ∀ t : Fin cfg1.N, t.val % 8 = 7 → dat.after 3 t = k1_pay3 (acc t.val t.isLt) (iblk1 V c 2 t))
    (Ar t1r W23r : ℕ → ℕ → ℝ)
    (hAr : (V c main_v11 : S8192x8192.Idx → EReal) = coe2 Ar) (ht1 : (V c main_v13 : S8192x256.Idx → EReal) = coe2 t1r)
    (hW : (V c main_v12 : S256x128.Idx → EReal) = coe2 W23r) :
    (dat.arrAt 3 cfg1.N : S8192x128.Idx → EReal) = coe2 (mm 256 (hid Ar t1r) W23r) :=
  dat.arrAt_eq_of_cover 3 (coe2 (mm 256 (hid Ar t1r) W23r) : S8192x128.Idx → EReal) (fun t hfl => by
    have hf : t.val % 8 = 7 := (flush1_3 t).mp hfl
    obtain ⟨-, -, -, -, e4, e5, e6, e7⟩ := idx1 t
    show (cfg1.win 3).cut (grid1.coords t) (dat.after 3 t) = _
    rw [hout t hf]
    refine ext2 (a := 2048) (b := 128) fun p q => ?_
    show _ = (coe2 (mm 256 (hid Ar t1r) W23r) : S8192x128.Idx → EReal) (((cfg1.win 3).blk t).view.emb (ix2 p q))
    refine (pay3 _ _ (fun p k => mm 8192 Ar t1r (2048 * (t.val / 8) + p) k) W23r
      (ext2 fun p k => ((acc_part Ar t1r (fun m h => by omega) acc
        (fun n h v => k1_pay2 v (iblk1 V c 0 ⟨n, h⟩) (iblk1 V c 1 ⟨n, h⟩)) (k1_pay1 (F := Ideal)) (fun _ => reset_apply _ _) hreset hstep
        (fun n h v p q => pay2 v _ _ _ _ (blkA V c Ar hAr ⟨n, h⟩) (blkT V c t1r ht1 ⟨n, h⟩) p q) t.val t.isLt p k).trans
          (congrArg _ (part_last Ar t1r t.val (by omega) _ _))))
      (funext fun y => coe2_at hW (by show win1_2.index t (0 : Fin 2) * 256 + 1 * (y 0).val = _; omega)
        (by show win1_2.index t (1 : Fin 2) * 128 + 1 * (y 1).val = _; omega)) p q).trans ?_
    exact at_coe2 (mm 256 (hid Ar t1r) W23r) _ (by show win1_3.index t (0 : Fin 2) * 2048 + 1 * p.val = _; omega)
      (by show win1_3.index t (1 : Fin 2) * 128 + 1 * q.val = _; omega)) cover

end Cert.KernelIdeal.Hand.V1

end
-- ==== Proof.Hand.KI.Val2.lean ====
/- Region 2: the latent code, the product with A accumulated over sixteen column blocks. -/
import proofs.«400964_j13743895347838_3_alg».proof.Proof.Hand.KI.Val0

noncomputable section

namespace Cert.KernelIdeal.Hand.V2

open Idealize.ShloMosaic Idealize.ShloMosaic.TcCoe Idealize.ShloMosaic.Tactic
open Idealize.ShloMosaic.Pipeline (Dat Cfg Window)
open Cert.KernelIdeal Cert.KernelIdeal.Gen
open Cert.KernelIdeal.Hand Cert.Spec Idealize.ShloMosaic.ValueIdx
open Cert.KernelIdeal.Hand.V0 (coe2_at at_coe2 ext2 mm3 part_last acc_part reset_apply)

/-- One accumulation step of region 2 on real blocks: the accumulator's entry plus the exact block product. -/
theorem pay2 (v3 : Vec Ideal S2048x128 .f32) (v4 : Vec Ideal S2048x512 .f32) (v6 : Vec Ideal S512x128 .f32) (f g : ℕ → ℕ → ℝ)
    (h4 : (v4 : S2048x512.Idx → EReal) = coe2 f) (h6 : (v6 : S512x128.Idx → EReal) = coe2 g) (p : Fin 2048) (q : Fin 128) :
    k2_pay2 v3 v4 v6 (ix2 p q) = v3 (ix2 p q) + ((mm 512 f g p q : ℝ) : EReal) := by
  subst h4 h6
  unfold k2_pay2
  simp only [shapeCast_self]
  exact (addf_apply _ _ _).trans (congrArg _ (mm3 _ rfl _ _ _ f g p q (fun _ => rfl) fun _ => rfl))

/-- The latent code from the finished accumulator: its mean column plus the noise times the exponential of the column 64 further on. -/
theorem pay3 (v28 : Vec Ideal S2048x128 .f32) (v31 : Vec Ideal S2048x64 .f32) (m e : ℕ → ℕ → ℝ)
    (h28 : (v28 : S2048x128.Idx → EReal) = coe2 m) (h31 : (v31 : S2048x64.Idx → EReal) = coe2 e) (p : Fin 2048) (q : Fin 64) :
    k2_pay3 v28 v31 (ix2 p q) = ((m p q + e p q * Real.exp (m p (q + 64)) : ℝ) : EReal) := by
  unfold k2_pay3
  refine (addf_apply _ _ _).trans ((congrArg₂ (· + ·) (slice2_axis1_eq 0 v28 slices_S2048x128_o0_0_S2048x64 p q) ((mulf_apply _ _ _).trans
    (congrArg (v31 (ix2 p q) * ·) (congrArg Ideal.exp (slice2_axis1_eq 64 v28 slices_S2048x128_o0_64_S2048x64 p q))))).trans ?_)
  subst h28 h31
  show ((m p.val (0 + q.val) : ℝ) : EReal) + ((e p.val q.val : ℝ) : EReal) * ((Real.exp (m p.val (64 + q.val)) : ℝ) : EReal) = _
  rw [Nat.zero_add, Nat.add_comm 64, EReal.coe_add, EReal.coe_mul]

theorem idx2 : ∀ t : Fin cfg2.N,
    win2_0.index t (0 : Fin 2) = t.val / 16 ∧ win2_0.index t (1 : Fin 2) = t.val % 16
    ∧ win2_1.index t (0 : Fin 2) = t.val % 16 ∧ win2_1.index t (1 : Fin 2) = 0
    ∧ win2_2.index t (0 : Fin 2) = t.val / 16 ∧ win2_2.index t (1 : Fin 2) = 0
    ∧ win2_3.index t (0 : Fin 2) = t.val / 16 ∧ win2_3.index t (1 : Fin 2) = 0 :=
  (by decide +kernel : ∀ t : Fin grid2.N, _)

section
variable (V : (c : Dev nD) → (b : Ref sig .tc) → Buf (Elt Ideal) ((c : Thread nD τ).loc b)) (c : Dev nD)

/-- The adjacency block at point t = 16 i + k: rows 2048 i … and columns 512 k … of the matrix. -/
theorem blkA (Ar : ℕ → ℕ → ℝ) (hAr : (V c main_v11 : S8192x8192.Idx → EReal) = coe2 Ar) (t : Fin cfg2.N) :
    (iblk2 V c 0 t : S2048x512.Idx → EReal) = coe2 fun p k => Ar (2048 * (t.val / 16) + p) (512 * (t.val % 16) + k) := by
  obtain ⟨e0, e1, -⟩ := idx2 t
  exact funext fun y => coe2_at hAr (by show win2_0.index t (0 : Fin 2) * 2048 + 1 * (y 0).val = _; omega)
    (by show win2_0.index t (1 : Fin 2) * 512 + 1 * (y 1).val = _; omega)

/-- The block of the projected features at that point: rows 512 k …. -/
theorem blkT (tr : ℕ → ℕ → ℝ) (ht : (V c main_v14 : S8192x128.Idx → EReal) = coe2 tr) (t : Fin cfg2.N) :
    (iblk2 V c 1 t : S512x128.Idx → EReal) = coe2 fun k q => tr (512 * (t.val % 16) + k) q := by
  obtain ⟨-, -, e2, e3, -⟩ := idx2 t
  exact funext fun y => coe2_at ht (by show win2_1.index t (0 : Fin 2) * 512 + 1 * (y 0).val = _; omega)
    (by show win2_1.index t (1 : Fin 2) * 128 + 1 * (y 1).val = _; omega)
end

/-- Every row of the result lies in the block the last point of its row block writes back. -/
theorem cover (i : S8192x64.Idx) : ∃ t : Fin cfg2.N, (cfg2.win 3).flush t = true ∧ i ∈ ((cfg2.win 3).blk t).view.set := by
  have hi0 : (i 0).val < 8192 := (i 0).isLt
  have hi1 : (i 1).val < 64 := (i 1).isLt
  obtain ⟨t, ht⟩ : ∃ t : Fin cfg2.N, t.val = 16 * ((i 0).val / 2048) + 15 :=
    ⟨⟨16 * ((i 0).val / 2048) + 15, by have : cfg2.N = 64 := N_2; omega⟩, rfl⟩
  obtain ⟨-, -, -, -, -, -, e6, e7⟩ := idx2 t
  refine ⟨t, (flush2_3 t).mpr (by omega), ?_⟩
  show i ∈ ((View.whole main_v15).slice (win2_3.rect t)).set
  rw [View.set_slice_whole]
  exact Rect.mem_set_unit.mpr (Fin.forall_fin_two.mpr
    ⟨by show win2_3.index t (0 : Fin 2) * 2048 ≤ (i 0).val ∧ (i 0).val < win2_3.index t (0 : Fin 2) * 2048 + 2048; omega,
     by show win2_3.index t (1 : Fin 2) * 64 ≤ (i 1).val ∧ (i 1).val < win2_3.index t (1 : Fin 2) * 64 + 64; omega⟩)

/-- Region 2 leaves the latent code in its result array when A, the projected features and the noise are real on entry. -/
theorem value (V : (c : Dev nD) → (b : Ref sig .tc) → Buf (Elt Ideal) ((c : Thread nD τ).loc b)) (c : Dev nD)
    (dat : Dat τ (Elt Ideal) Unit ℕ (UR sig nD τ) ℕ cfg2 c)
    (acc : (n : ℕ) → n < cfg2.N → Vec Ideal S2048x128 .f32)
    (hreset : ∀ t : Fin cfg2.N, t.val % 16 = 0 → acc t.val t.isLt = k2_pay2 (k2_pay1 (F := Ideal)) (iblk2 V c 0 t) (iblk2 V c 1 t))
    (hstep : ∀ t : Fin cfg2.N, t.val % 16 ≠ 0 →
      acc t.val t.isLt = k2_pay2 (acc (t.val - 1) (Nat.lt_of_le_of_lt (Nat.sub_le _ _) t.isLt)) (iblk2 V c 0 t) (iblk2 V c 1 t))
    (hout : ∀ t : Fin cfg2.N, t.val % 16 = 15 → dat.after 3 t = k2_pay3 (acc t.val t.isLt) (iblk2 V c 2 t))
    (Ar tr epsr : ℕ → ℕ → ℝ)
    (hAr : (V c main_v11 : S8192x8192.Idx → EReal) = coe2 Ar) (ht : (V c main_v14 : S8192x128.Idx → EReal) = coe2 tr)
    (he : (V c main_arg4 : S8192x64.Idx → EReal) = coe2 epsr) :
    (dat.arrAt 3 cfg2.N : S8192x64.Idx → EReal) = coe2 (lat Ar tr epsr) :=
  dat.arrAt_eq_of_cover 3 (coe2 (lat Ar tr epsr) : S8192x64.Idx → EReal) (fun t hfl => by
    have hf : t.val % 16 = 15 := (flush2_3 t).mp hfl
    obtain ⟨-, -, -, -, e4, e5, e6, e7⟩ := idx2 t
    show (cfg2.win 3).cut (grid2.coords t) (dat.after 3 t) = _
    rw [hout t hf]
    refine ext2 (a := 2048) (b := 64) fun p q => ?_
    show _ = (coe2 (lat Ar tr epsr) : S8192x64.Idx → EReal) (((cfg2.win 3).blk t).view.emb (ix2 p q))
    refine (pay3 _ _ (fun p k => mm 8192 Ar tr (2048 * (t.val / 16) + p) k) (fun p q => epsr (2048 * (t.val / 16) + p) q)
      (ext2 fun p k => ((acc_part Ar tr (fun m h => by omega) acc
        (fun n h v => k2_pay2 v (iblk2 V c 0 ⟨n, h⟩) (iblk2 V c 1 ⟨n, h⟩)) (k2_pay1 (F := Ideal)) (fun _ => reset_apply _ _) hreset hstep
        (fun n h v p q => pay2 v _ _ _ _ (blkA V c Ar hAr ⟨n, h⟩) (blkT V c tr ht ⟨n, h⟩) p q) t.val t.isLt p k).trans
          (congrArg _ (part_last Ar tr t.val (by omega) _ _))))
      (funext fun y => coe2_at he (by show win2_2.index t (0 : Fin 2) * 2048 + 1 * (y 0).val = _; omega)
        (by show win2_2.index t (1 : Fin 2) * 64 + 1 * (y 1).val = _; omega)) p q).trans ?_
    exact at_coe2 (lat Ar tr epsr) _ (by show win2_3.index t (0 : Fin 2) * 2048 + 1 * p.val = _; omega)
      (by show win2_3.index t (1 : Fin 2) * 64 + 1 * q.val = _; omega)) cover

end Cert.KernelIdeal.Hand.V2

end
-- ==== Proof.Hand.KI.Val3.lean ====
/- Region 3: the Gram matrix of the latent code's rows. -/
import proofs.«400964_j13743895347838_3_alg».proof.Proof.Hand.KI.Val0

noncomputable section

namespace Cert.KernelIdeal.Hand.V3

open Idealize.ShloMosaic Idealize.ShloMosaic.TcCoe Idealize.ShloMosaic.Tactic
open Idealize.ShloMosaic.Pipeline (Dat Cfg Window)
open Cert.KernelIdeal Cert.KernelIdeal.Gen
open Cert.KernelIdeal.Hand Cert.Spec Idealize.ShloMosaic.ValueIdx
open Cert.KernelIdeal.Hand.V0 (coe2_at at_coe2 ext2 x3)

/-- The product of two [2048,64] blocks along their second axes into the zero block, at (p, q): row p against row q. -/
theorem mm_gram {φ₁ φ₂ : FTy} (a : FVec Ideal S2048x64 φ₁) (b : FVec Ideal S2048x64 φ₂) (p q : Fin 2048) :
    matmul dot_S2048x64_S2048x64_S2048x2048_1_1_0_0_n_n none a b (constant (F := Ideal) S2048x2048 .f32 0x00000000#32) (ix2 p q)
      = ∑ k : Fin 64, a (ix2 p k) * b (ix2 q k) := by
  show FloatOps.matmul _ none a b _ (ix2 p q) = _
  rw [Ideal.matmul_constant_zero_apply, ← Equiv.sum_comp (contrEquiv1 _ 64 rfl rfl).symm]
  refine Finset.sum_congr rfl fun k _ => ?_
  have c2 := contrEquiv1_symm_val dot_S2048x64_S2048x64_S2048x2048_1_1_0_0_n_n 64 rfl rfl k
  congr 2 <;> exact Shape.idx_ext₂ (by first | rfl | exact c2) (by first | rfl | exact c2)

/-- The block of the Gram matrix from real high parts and zero low parts: rows of the left block against rows of the right. -/
theorem pay (v0 v2 v4 v6 : Vec Ideal S2048x64 .bf16) (f g : ℕ → ℕ → ℝ)
    (h0 : (v0 : S2048x64.Idx → EReal) = coe2 f) (h2 : (v2 : S2048x64.Idx → EReal) = coe2 fun _ _ => 0)
    (h4 : (v4 : S2048x64.Idx → EReal) = coe2 g) (h6 : (v6 : S2048x64.Idx → EReal) = coe2 fun _ _ => 0) (p q : Fin 2048) :
    k3_pay1 v0 v2 v4 v6 (ix2 p q) = ((∑ j ∈ Finset.range 64, f p j * g q j : ℝ) : EReal) := by
  subst h0 h2 h4 h6
  unfold k3_pay1
  simp only [shapeCast_self, addf_apply, mm_gram]
  exact x3 (f p) (g q) _ _ (fun _ => EReal.coe_zero) fun _ => EReal.coe_zero

theorem idx3 : ∀ t : Fin cfg3.N,
    win3_0.index t (0 : Fin 2) = t.val / 4 ∧ win3_0.index t (1 : Fin 2) = 0
    ∧ win3_2.index t (0 : Fin 2) = t.val % 4 ∧ win3_2.index t (1 : Fin 2) = 0
    ∧ win3_4.index t (0 : Fin 2) = t.val / 4 ∧ win3_4.index t (1 : Fin 2) = t.val % 4 :=
  (by decide +kernel : ∀ t : Fin grid3.N, _)

/-- Every entry of the result lies in the block of the point of its row block and column block. -/
theorem cover (i : S8192x8192.Idx) : ∃ t : Fin cfg3.N, (cfg3.win 4).flush t = true ∧ i ∈ ((cfg3.win 4).blk t).view.set := by
  have hi0 : (i 0).val < 8192 := (i 0).isLt
  have hi1 : (i 1).val < 8192 := (i 1).isLt
  obtain ⟨t, ht⟩ : ∃ t : Fin cfg3.N, t.val = 4 * ((i 0).val / 2048) + (i 1).val / 2048 :=
    ⟨⟨4 * ((i 0).val / 2048) + (i 1).val / 2048, by have : cfg3.N = 16 := N_3; omega⟩, rfl⟩
  obtain ⟨-, -, -, -, e8, e9⟩ := idx3 t
  refine ⟨t, flush3_4 t, ?_⟩
  show i ∈ ((View.whole main_v20).slice (win3_4.rect t)).set
  rw [View.set_slice_whole]
  exact Rect.mem_set_unit.mpr (Fin.forall_fin_two.mpr
    ⟨by show win3_4.index t (0 : Fin 2) * 2048 ≤ (i 0).val ∧ (i 0).val < win3_4.index t (0 : Fin 2) * 2048 + 2048; omega,
     by show win3_4.index t (1 : Fin 2) * 2048 ≤ (i 1).val ∧ (i 1).val < win3_4.index t (1 : Fin 2) * 2048 + 2048; omega⟩)

/-- Region 3 leaves the Gram matrix of the code's rows in its result array when the high-part array holds the code and the low-part array zero. -/
theorem value (V : (c : Dev nD) → (b : Ref sig .tc) → Buf (Elt Ideal) ((c : Thread nD τ).loc b)) (c : Dev nD)
    (dat : Dat τ (Elt Ideal) Unit ℕ (UR sig nD τ) ℕ cfg3 c)
    (hout : ∀ t : Fin cfg3.N, dat.after 4 t = k3_pay1 (F := Ideal) (iblk3 V c 0 t) (iblk3 V c 1 t) (iblk3 V c 2 t) (iblk3 V c 3 t))
    (zr : ℕ → ℕ → ℝ)
    (hhi : (V c main_v16 : S8192x64.Idx → EReal) = coe2 zr) (hlo : (V c main_v19 : S8192x64.Idx → EReal) = coe2 (fun _ _ => 0)) :
    (dat.arrAt 4 cfg3.N : S8192x8192.Idx → EReal) = coe2 (gram zr) :=
  dat.arrAt_eq_of_cover 4 (coe2 (gram zr) : S8192x8192.Idx → EReal) (fun t _ => by
    obtain ⟨e0, e1, e4, e5, e8, e9⟩ := idx3 t
    show (cfg3.win 4).cut (grid3.coords t) (dat.after 4 t) = _
    rw [hout t]
    refine ext2 (a := 2048) (b := 2048) fun p q => ?_
    show _ = (coe2 (gram zr) : S8192x8192.Idx → EReal) (((cfg3.win 4).blk t).view.emb (ix2 p q))
    refine (pay _ _ _ _ (fun p j => zr (2048 * (t.val / 4) + p) j) (fun p j => zr (2048 * (t.val % 4) + p) j)
      (funext fun y => coe2_at hhi (by show win3_0.index t (0 : Fin 2) * 2048 + 1 * (y 0).val = _; omega)
        (by show win3_0.index t (1 : Fin 2) * 64 + 1 * (y 1).val = _; omega))
      (funext fun y => coe2_at hlo rfl rfl)
      (funext fun y => coe2_at hhi (by show win3_2.index t (0 : Fin 2) * 2048 + 1 * (y 0).val = _; omega)
        (by show win3_2.index t (1 : Fin 2) * 64 + 1 * (y 1).val = _; omega))
      (funext fun y => coe2_at hlo rfl rfl) p q).trans ?_
    exact at_coe2 (gram zr) _ (by show win3_4.index t (0 : Fin 2) * 2048 + 1 * p.val = _; omega)
      (by show win3_4.index t (1 : Fin 2) * 2048 + 1 * q.val = _; omega)) cover

end Cert.KernelIdeal.Hand.V3

end
-- ==== Proof.Hand.KI.Final.lean ====
/- The kernel program's result as a real function of its arguments. -/
import proofs.«400964_j13743895347838_3_alg».proof.Proof.Hand.KI.Run
import proofs.«400964_j13743895347838_3_alg».proof.Proof.Hand.KI.Host
import proofs.«400964_j13743895347838_3_alg».proof.Proof.Hand.KI.Val1
import proofs.«400964_j13743895347838_3_alg».proof.Proof.Hand.KI.Val2
import proofs.«400964_j13743895347838_3_alg».proof.Proof.Hand.KI.Val3

noncomputable section

namespace Cert.KernelIdeal.Hand.Final

open Idealize.ShloMosaic Idealize.ShloMosaic.TcCoe
open Cert.KernelIdeal Cert.KernelIdeal.Gen
open Cert.KernelIdeal.Hand Cert.KernelIdeal.Hand.Run Cert.Spec

variable (m : (ℓ : Loc nD τ sig) → Buf (Elt Ideal) ℓ) (ρ : Dev nD → PrngReg) (c : Dev nD)
variable (xr epsr W1r W2r W3r : ℕ → ℕ → ℝ) (wr : ℕ → ℝ)

/-- The arguments hold real numbers and the edge list's node indices are in range. -/
structure Args : Prop where
  h0 : (m ((c.tc : Thread nD τ).loc main_arg0) : S8192x512.Idx → EReal) = coe2 xr
  h3 : (m ((c.tc : Thread nD τ).loc main_arg3) : S524288.Idx → EReal) = coe1 wr
  h4 : (m ((c.tc : Thread nD τ).loc main_arg4) : S8192x64.Idx → EReal) = coe2 epsr
  h5 : (m ((c.tc : Thread nD τ).loc main_arg5) : S512x256.Idx → EReal) = coe2 W1r
  h6 : (m ((c.tc : Thread nD τ).loc main_arg6) : S256x64.Idx → EReal) = coe2 W2r
  h7 : (m ((c.tc : Thread nD τ).loc main_arg7) : S256x64.Idx → EReal) = coe2 W3r
  hs : InRange (m ((c.tc : Thread nD τ).loc main_arg1))
  hd : InRange (m ((c.tc : Thread nD τ).loc main_arg2))

variable {m c xr epsr W1r W2r W3r wr}

/-- The four regions and the two host stretches in turn: each region's inputs are what the items before it left, so the result array ends holding the Gram matrix of the latent code. -/
theorem result_real (h : Args m c xr epsr W1r W2r W3r wr) :
    ((R3.dat (F := Ideal) (V5 m ρ) c).arrAt 4 cfg3.N : S8192x8192.Idx → EReal)
      = coe2 (out xr (natOf (m ((c.tc : Thread nD τ).loc main_arg1))) (natOf (m ((c.tc : Thread nD τ).loc main_arg2))) wr epsr W1r W2r W3r) := by
  have arg : ∀ b, b ∉ hostOps0_W → V1 m ρ c b = m ((c.tc : Thread nD τ).loc b) :=
    fun b hb => StableHlo.after_of_writes_sub hostOps0 _ hostOps0_writes hb
  have a1 := (W2_keep m ρ c main_v11 (by decide)).trans (Host.host0_adj (W0 m ρ c) wr h.h3 h.hs h.hd)
  have t1 := V0.value (V1 m ρ) c (R0.dat (V1 m ρ) c) (R0.after_out (V1 m ρ) c) xr W1r
    ((arg main_arg0 (by decide)).trans h.h0) ((arg main_arg5 (by decide)).trans h.h5)
  have t23 := V1.value (V2 m ρ) c (R1.dat (V2 m ρ) c) (R1.acc (V2 m ρ) c) (R1.acc_reset (V2 m ρ) c) (R1.acc_step (V2 m ρ) c)
    (R1.after_out (V2 m ρ) c) _ _ _ a1 ((W2_arr m ρ c 2).trans t1)
    ((W2_keep m ρ c main_v12 (by decide)).trans (Host.host0_cat (W0 m ρ c) W2r W3r h.h6 h.h7))
  have z := (W4_arr m ρ c 3).trans (V2.value (V3 m ρ) c (R2.dat (V3 m ρ) c) (R2.acc (V3 m ρ) c) (R2.acc_reset (V3 m ρ) c)
    (R2.acc_step (V3 m ρ) c) (R2.after_out (V3 m ρ) c) _ _ epsr
    ((W3_arr m ρ c 0).trans (((R1.dat (V2 m ρ) c).arrAt_in 0 rfl _).trans ((R1.A_eq (V2 m ρ) c 0).trans a1)))
    ((W3_arr m ρ c 3).trans t23)
    ((W3_keep m ρ c main_arg4 (by decide)).trans ((W2_keep m ρ c main_arg4 (by decide)).trans ((arg main_arg4 (by decide)).trans h.h4))))
  exact V3.value (V5 m ρ) c (R3.dat (V5 m ρ) c) (R3.after_out (V5 m ρ) c) _ (Host.host3_hi (W4 m ρ c) _ z) (Host.host3_lo (W4 m ρ c) _ z)

end Cert.KernelIdeal.Hand.Final

end
-- ==== Proof.Hand.K.Blocks.lean ====
import proofs.«400964_j13743895347838_3_alg».proof.Proof.Gen.Kernel.Launch
import proofs.«400964_j13743895347838_3_alg».proof.Proof.Gen.Kernel.Skeleton
import proofs.«400964_j13743895347838_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«400964_j13743895347838_3_alg».proof.Proof.LibRun

noncomputable section

namespace Cert.Kernel.Hand

open Idealize.ShloMosaic Idealize.ShloMosaic.TcCoe Idealize.SL.Sem
open Cert.Kernel Cert.Kernel.Gen

variable {F : FTy → Type} [FloatOps F]

variable (V : (c : Dev nD) → (b : Ref sig .tc) → Buf (Elt F) ((c : Thread nD τ).loc b))

/-- Window `w`'s block of region 0 at grid point `t`: the rectangle of its array, as the region finds it, that the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same for regions 1, 2 and 3. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

end Cert.Kernel.Hand

end
-- ==== Proof.Hand.K.Reg0.lean ====
import Idealize.ShloMosaic.Lib.Pipeline.Value
import proofs.«400964_j13743895347838_3_alg».proof.Proof.Hand.Spec
import proofs.«400964_j13743895347838_3_alg».proof.Proof.Hand.K.Blocks

noncomputable section

namespace Cert.Kernel.Hand.R0

open Idealize.ShloMosaic Idealize.ShloMosaic.TcCoe Idealize.SL Idealize.SL.RA Idealize.SL.BI Idealize.SL.BI.BIBase Idealize.SL.BI.Laws Idealize.SL.Sem
open scoped Idealize.SL.BI
open Idealize.ShloMosaic.Pipeline (Dat BodyObligation)
open Cert.Kernel.Gen Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The reduction axis has extent one: the one condition both of the body's branches test holds at every point, and the output block is written back at every point. -/
theorem hcond : ∀ t : Fin cfg0.N, k0_cond2 (grid0.coords t) = 1#1 ∧ idle0 2 (grid0.coords t) = false :=
  (by decide +kernel : ∀ t : Fin grid0.N, _)

local macro_rules | `(tactic| sl_pure) => `(tactic| (sl_unfold_words; simp only [read_store, readCov_store, readAt_whole]))

/-- The class invariant with the accumulator taken out of the scoped rest. -/
theorem PhiA0_eq (c : Dev nD) : (Pipeline.ΦA spec0 c : sProp 𝕄)
    = iprop(((∃ d, owns c.tc (Memref.whole cc0_scratch0) fullShare d) ∗ Pipeline.scopedRestBut spec0 c [cc0_scratch0]) ∗ ∃ r, prngReg c r) := by
  unfold Pipeline.ΦA; rw [scopedRest0_split]; simp only [owns_whole]; try rfl

/-- At every point the body zeroes the accumulator, adds the product of the two input buffers into it and copies it to the output buffer. -/
theorem kernelRun0 (c : Dev nD) (t : Fin cfg0.N)
    (arg3 : Memref sig .tc .vmem S2048x512 .f32) (harg3 : arg3.IsWhole) (arg4 : Memref sig .tc .vmem S512x256 .f32) (harg4 : arg4.IsWhole)
    (arg5 arg6 : Memref sig .tc .vmem S2048x256 .f32) (harg5 : arg5.IsWhole) (harg6 : arg6.IsWhole)
    (x0 : Vec F S2048x512 .f32) (x1 : Vec F S512x256 .f32) (E : Set ℕ) (K : PUnit → sProp 𝕄) :
    iprop(owns c.tc arg3 fullShare x0 ∗ owns c.tc arg4 fullShare x1 ∗ (∃ d, owns c.tc arg5 fullShare d) ∗ (∃ d, owns c.tc arg6 fullShare d)
        ∗ (iprop(owns c.tc arg3 fullShare x0 ∗ owns c.tc arg4 fullShare x1 ∗ owns c.tc arg5 fullShare (k0_pay2 (k0_pay1 (F := F)) x0 x1)
            ∗ owns c.tc arg6 fullShare (k0_pay2 (k0_pay1 (F := F)) x0 x1)) -∗ K ⟨⟩))
      ⊢ wp frame (wpE (defs₀ (F := F)) Variants.none c none) E (cc0__matmul_kernel (grid0.coords t) arg3 harg3 arg4 harg4 arg5 harg5 arg6 harg6) K := by
  simp only [cc0__matmul_kernel_eq_skeleton]; unfold cc0__matmul_kernel_skel owns
  iintro ⟨⟨%f0, %hf0, H0⟩, ⟨%f1, %hf1, H1⟩, ⟨%d2, %f2, -, H2⟩, ⟨%d3, %f3, -, H3⟩, Hk⟩
  subst hf0; subst hf1
  sl_exec (disch := exact (hcond t).1)
  sl_step
  iapply Hk
  sl_close

/-- The arrays as the region finds them; after the body each input's buffer at its block and the output's at the product payload of the two blocks. -/
def dat (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay2 (k0_pay1 (F := F)) (iblk0 V c 0 t) (iblk0 V c 1 t)
  Φ _ := Pipeline.ΦA spec0 c
  q _ := fullShare
  owed _ := 0

theorem A_eq (c : Dev nD) (w : Fin cfg0.W) : (dat V c).A w = V c (Pipeline.arrRef spec0 w) := rfl

theorem after_out (c : Dev nD) (t : Fin cfg0.N) :
    (dat V c).after 2 t = k0_pay2 (k0_pay1 (F := F)) (iblk0 V c 0 t) (iblk0 V c 1 t) := by
  dsimp only [dat]

/-- What the body finds in an input window's buffer is what it leaves there: the window's block. -/
theorem before_in (c : Dev nD) : ∀ w : Fin cfg0.W, w ≠ 2 → ∀ t d, (dat V c).before w t d = (dat V c).after w t
  | 2, h => absurd rfl h
  | 0, _ | 1, _ => fun t d => ((dat V c).before_in_eq_fetched _ rfl (fun _ => rfl) (fun _ _ _ => rfl) (fun _ => rfl) t d).trans rfl

/-- The invariant lends the body the accumulator at any contents and takes it back at any; all else passes through. -/
theorem body_obligation (c : Dev nD) : BodyObligation (dat (F := F) V c) (defs₀ (F := F)) Variants.none () Set.univ := fun t => by
  rw [bigSep_W0, bigSep_W0]
  show _ ⊢ wp _ _ _ (bodyAt0 t) fun _ => iprop(_ ∗ (dat V c).owesAt () t.castSucc ∗ _)
  simp only [before_in V c 0 (by decide), before_in V c 1 (by decide), (hcond t).2]
  dsimp only [dat]
  rw [PhiA0_eq]
  iintro ⟨⟨⟨H3, Hr⟩, Hg⟩, Ho, ⟨%d0, H0⟩, ⟨%d1, H1⟩, ⟨%d2, H2⟩⟩
  iapply (kernelRun0 c t _ _ _ _ _ _ _ _ _ _ _ _)
  iframe H0 H1 H3
  isplitl [H2]; · iexists _; iexact H2
  iintro ⟨H0, H1, H2, H3⟩
  iframe Hr Hg Ho H0 H1 H2
  iexists _; iexact H3

theorem hin (c : Dev nD) : (Pipeline.ΦA spec0 c : sProp 𝕄) ⊢ (dat V c).Φ 0 := .rfl

theorem hout (c : Dev nD) : (dat V c).Φ (Fin.last cfg0.N) ⊢ (Pipeline.ΦA spec0 c : sProp 𝕄) := .rfl

end Cert.Kernel.Hand.R0

end
-- ==== Proof.Hand.K.Reg1.lean ====
/-
  Region 1 (the hidden layer and its projection), on a 4 × 8 grid of blocks of the adjacency matrix, from the contents `V`
  the region is entered with: what the accumulator holds after each point, what the output block holds at the end of
  each row of blocks, and the body obligation over these.
-/
import Idealize.ShloMosaic.Lib.Pipeline.Value
import proofs.«400964_j13743895347838_3_alg».proof.Proof.Hand.Spec
import proofs.«400964_j13743895347838_3_alg».proof.Proof.Hand.K.Blocks

noncomputable section

namespace Cert.Kernel.Hand.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's first condition (the accumulator is reset), from the grid coordinates: -/
abbrev cond1_0 (i : grid1.Coords) : Prop := (Scalar.cmpi .ne (Scalar.extui (Scalar.cmpi .eq (BitVec.ofNat 32 (i 1).val) 0#32)) 0#32) = 1#1
/-- it holds at the first column block of each row. -/
theorem hcond1_0 : ∀ t : Fin cfg1.N, cond1_0 (grid1.coords t) ↔ t.val % 8 = 0 := by decide +kernel

/-- The second condition (the output block is stored). -/
abbrev cond1_1 (i : grid1.Coords) : Prop := k1_cond2 i = 1#1
theorem out_idle : ∀ t : Fin cfg1.N, if cond1_1 (grid1.coords t) then cfg1.idle 3 (grid1.coords t) = false
    else cfg1.idle 3 (grid1.coords t) = true ∧ (cfg1.win 3).flush t = false := by decide +kernel

/-- The body on whole buffers at given contents: the accumulator ends at the update of what it held, or of the reset
    value where the first condition holds; the output block, where the second holds, at the projection of that. -/
theorem run {c : Dev nD} {i : grid1.Coords}
    {arg2 : Memref sig .tc .vmem S2048x1024 .f32} {harg2 : arg2.IsWhole} {arg3 : Memref sig .tc .vmem S1024x256 .f32} {harg3 : arg3.IsWhole}
    {arg4 : Memref sig .tc .vmem S256x128 .f32} {harg4 : arg4.IsWhole} {arg5 : Memref sig .tc .vmem S2048x128 .f32} {harg5 : arg5.IsWhole}
    {arg6 : Memref sig .tc .vmem S2048x256 .f32} {harg6 : arg6.IsWhole}
    {x0 : Vec F S2048x1024 .f32} {x1 : Vec F S1024x256 .f32} {x2 : Vec F S256x128 .f32} {x3 : Vec F S2048x128 .f32} {xs : Vec F S2048x256 .f32}
    {E : Set ℕ} {K : PUnit → sProp 𝕄} :
    iprop(owns c.tc arg2 fullShare x0 ∗ owns c.tc arg3 fullShare x1 ∗ owns c.tc arg4 fullShare x2
        ∗ owns c.tc arg5 fullShare x3 ∗ owns c.tc arg6 fullShare xs
        ∗ (iprop(owns c.tc arg2 fullShare x0 ∗ owns c.tc arg3 fullShare x1 ∗ owns c.tc arg4 fullShare x2
            ∗ owns c.tc arg5 fullShare (if cond1_1 i then k1_pay3 (k1_pay2 (if cond1_0 i then k1_pay1 else xs) x0 x1) x2 else x3)
            ∗ owns c.tc arg6 fullShare (k1_pay2 (if cond1_0 i then k1_pay1 else xs) x0 x1)) -∗ K ⟨⟩))
      ⊢ wp frame (wpE (defs₀ (F := F)) Variants.none c none) E (cc1__gcn1_kernel i arg2 harg2 arg3 harg3 arg4 harg4 arg5 harg5 arg6 harg6) K := by
  simp only [cc1__gcn1_kernel_eq_skeleton]; unfold cc1__gcn1_kernel_skel owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  by_cases hc0 : cond1_0 i <;> by_cases hc1 : cond1_1 i
  all_goals
    sl_exec (disch := first | exact hc0 | exact hc1)
    sl_step
    iapply Hk
    isplitl [H0]; swap; isplitl [H1]; swap; isplitl [H2]; swap; isplitl [H3]
    all_goals
      iexists _; isplitr; swap; · iassumption
      ipureintro; sl_unfold_words
      try first | rw [if_pos hc1] | rw [if_neg hc1]
      try first | rw [if_pos hc0] | rw [if_neg hc0]
      simp only [read_store, View.readAt_eq_ld, ld_whole, View.readCov_cons_toLoadRect, harg2.read_unread, harg3.read_unread,
        harg4.read_unread, harg5.read_unread, harg6.read_unread]

/-- The accumulator after point `n`: the update, by the point's two blocks, of what point `n - 1` left, or of the reset
    value at the first column block of a row. -/
def acc (c : Dev nD) : (n : ℕ) → n < cfg1.N → Vec F S2048x256 .f32
  | 0, hn => k1_pay2 (k1_pay1 (F := F)) (iblk1 V c 0 ⟨0, hn⟩) (iblk1 V c 1 ⟨0, hn⟩)
  | n + 1, hn =>
    if (n + 1) % 8 = 0 then k1_pay2 (k1_pay1 (F := F)) (iblk1 V c 0 ⟨n + 1, hn⟩) (iblk1 V c 1 ⟨n + 1, hn⟩)
    else k1_pay2 (acc c n (Nat.lt_of_succ_lt hn)) (iblk1 V c 0 ⟨n + 1, hn⟩) (iblk1 V c 1 ⟨n + 1, hn⟩)

theorem acc_reset (c : Dev nD) (t : Fin cfg1.N) (h : t.val % 8 = 0) :
    acc V c t.val t.isLt = k1_pay2 (k1_pay1 (F := F)) (iblk1 V c 0 t) (iblk1 V c 1 t) := by
  obtain ⟨_ | n, hn⟩ := t
  exacts [rfl, if_pos h]

theorem acc_step (c : Dev nD) (t : Fin cfg1.N) (h : t.val % 8 ≠ 0) :
    acc V c t.val t.isLt = k1_pay2 (acc V c (t.val - 1) (Nat.lt_of_le_of_lt (Nat.sub_le _ _) t.isLt)) (iblk1 V c 0 t) (iblk1 V c 1 t) := by
  obtain ⟨_ | n, hn⟩ := t
  exacts [absurd (Nat.zero_mod _) h, if_neg h]

/-- One point's update, from contents that are the previous point's wherever there is a previous point. -/
theorem acc_next (c : Dev nD) (t : Fin cfg1.N) (d : Vec F S2048x256 .f32) (hd : ∀ n hn, t.val = n + 1 → d = acc V c n hn) :
    k1_pay2 (if cond1_0 (grid1.coords t) then k1_pay1 else d) (iblk1 V c 0 t) (iblk1 V c 1 t) = acc V c t.val t.isLt := by
  by_cases h : t.val % 8 = 0
  · rw [if_pos ((hcond1_0 t).mpr h), acc_reset V c t h]
  · rw [if_neg (mt (hcond1_0 t).mp h), acc_step V c t h, ← hd (t.val - 1) _ (by omega)]

abbrev scM : Memref sig .tc .vmem S2048x256 .f32 := Memref.whole cc1_scratch0

abbrev restBut (c : Dev nD) : sProp 𝕄 :=
  Pipeline.scopedRestBut (Ix := Unit) (Name := ℕ) (U := UR sig nD τ) (Lvl := ℕ) (Val := Elt F) spec1 c [cc1_scratch0]

/-- What the region is entered with, the accumulator split off at some contents. -/
theorem PhiA_eq (c : Dev nD) :
    (Pipeline.ΦA spec1 c : sProp 𝕄)
      = iprop(iprop(iprop((∃ d, owns c.tc scM fullShare d)) ∗ restBut (F := F) c) ∗ (∃ r, prngReg c r)) := by
  unfold Pipeline.ΦA; rw [scopedRest1_split]; simp only [scM, owns_whole]; try rfl

/-- Before position `n` the accumulator is at some contents: after a point, those the point left. -/
def PhiS (c : Dev nD) (n : ℕ) : sProp 𝕄 :=
  iprop(iprop(iprop(∃ d, ⌜∀ m hm, n = m + 1 → d = acc V c m hm⌝ ∗ owns c.tc scM fullShare d) ∗ restBut (F := F) c) ∗ (∃ r, prngReg c r))

/-- The proof data: after the body each input is at its block and the output at the projection of the accumulator. -/
def dat (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc V c t.val t.isLt) (iblk1 V c 2 t)
  Φ t := PhiS V c t.val
  q _ := fullShare
  owed _ := 0

theorem A_eq (c : Dev nD) (w : Fin cfg1.W) : (dat V c).A w = V c (Pipeline.arrRef spec1 w) := by
  dsimp only [dat]

theorem Phi_eq (c : Dev nD) (t : Fin (cfg1.N + 1)) : (dat V c).Φ t = PhiS V c t.val := rfl

theorem after_0 (c : Dev nD) (t : Fin cfg1.N) : (dat V c).after 0 t = iblk1 V c 0 t := by dsimp only [dat]
theorem after_1 (c : Dev nD) (t : Fin cfg1.N) : (dat V c).after 1 t = iblk1 V c 1 t := by dsimp only [dat]
theorem after_2 (c : Dev nD) (t : Fin cfg1.N) : (dat V c).after 2 t = iblk1 V c 2 t := by dsimp only [dat]

theorem after_out (c : Dev nD) (t : Fin cfg1.N) (h : t.val % 8 = 7) :
    (dat V c).after 3 t = k1_pay3 (acc V c t.val t.isLt) (iblk1 V c 2 t) := by dsimp only [dat]

/-- When the body runs each input is at its block. -/
theorem before_in (c : Dev nD) (t : Fin cfg1.N) : (∀ d, (dat V c).before 0 t d = iblk1 V c 0 t)
    ∧ (∀ d, (dat V c).before 1 t d = iblk1 V c 1 t) ∧ ∀ d, (dat V c).before 2 t d = iblk1 V c 2 t := by
  refine ⟨fun d => ?_, fun d => ?_, fun d => ?_⟩ <;>
    exact ((dat V c).before_in_eq_fetched _ rfl (fun _ => rfl) (fun _ _ _ => rfl)
      (fun t => by dsimp only [dat, Dat.blockOf, iblk1]; try rfl) t d).trans (by dsimp only [dat, Dat.fetched, Dat.blockOf, iblk1]; try rfl)

/-- The output at the projection of the accumulator where it is stored, and as found elsewhere, is what the body is to leave. -/
theorem leaves_3 (c : Dev nD) (t : Fin cfg1.N) (d) (X) (hX : X = acc V c t.val t.isLt) :
    owns c.tc ((cfg1.win 3).stage (cfg1.slots t 3)) fullShare
        (if cond1_1 (grid1.coords t) then k1_pay3 X (iblk1 V c 2 t) else (dat V c).before 3 t d) ⊢ (dat V c).leavesExact 3 t := by
  have h := out_idle t
  subst hX
  by_cases hc : cond1_1 (grid1.coords t)
  · rw [if_pos hc] at h ⊢; unfold Dat.leavesExact; rw [h, show (dat V c).after 3 t = _ from by dsimp only [dat]]
  · rw [if_neg hc] at h ⊢; rw [Dat.leavesExact_idle _ 3 t h.1 h.2]
    iintro H; iexists d; iexact H

/-- At every point the body runs once from the invariant, whatever the accumulator held, to the invariant at the next point. -/
theorem body_obligation (c : Dev nD) : BodyObligation (dat (F := F) V c) (defs₀ (F := F)) Variants.none () Set.univ := fun t => by
  rw [bigSep_W1, bigSep_W1, show (dat V c).owesAt () t.succ = (dat V c).owesAt () t.castSucc from rfl]
  simp only [Phi_eq, PhiS, Fin.coe_castSucc, Fin.val_succ, before_in V c t, after_0, after_1, after_2]
  show _ ⊢ wp _ _ _ (bodyAt1 t) _
  iintro ⟨⟨⟨⟨%ds, %hd, HS⟩, HR⟩, Hg⟩, Ho, ⟨%d0, H0⟩, ⟨%d1, H1⟩, ⟨%d2, H2⟩, ⟨%d3, H3⟩⟩
  iapply run
  iframe H0 H1 H2 H3 HS
  iintro ⟨H0, H1, H2, H3, HS⟩
  iframe HR Hg Ho H0 H1 H2
  isplitl [HS]
  · iexists _; isplitr; swap; · iexact HS
    ipureintro; intro m hm e; obtain rfl := Nat.succ.inj e; exact acc_next V c t ds hd
  iapply (leaves_3 V c t d3 _ (acc_next V c t ds hd)); iexact H3

theorem hin (c : Dev nD) : (Pipeline.ΦA spec1 c : sProp 𝕄) ⊢ (dat V c).Φ 0 := by
  rw [PhiA_eq, Phi_eq, PhiS]
  iintro ⟨⟨⟨%d, HS⟩, HR⟩, Hg⟩
  iframe HR Hg
  iexists d; isplitr; · ipureintro; exact fun m _ e => absurd e (Nat.succ_ne_zero m).symm
  iexact HS

theorem hout (c : Dev nD) : (dat V c).Φ (Fin.last cfg1.N) ⊢ (Pipeline.ΦA spec1 c : sProp 𝕄) := by
  rw [PhiA_eq, Phi_eq, PhiS]
  iintro ⟨⟨⟨%d, -, HS⟩, HR⟩, Hg⟩
  iframe HR Hg
  iexists d; iexact HS

end Cert.Kernel.Hand.R1

end
-- ==== Proof.Hand.K.Reg2.lean ====
/-
  Region 2 (the latent code), on a 4 × 16 grid of blocks of the adjacency matrix, from the contents `V` the region is
  entered with: what the accumulator holds after each point, what the output block holds at the end of each row of
  blocks, and the body obligation over these.
-/
import Idealize.ShloMosaic.Lib.Pipeline.Value
import proofs.«400964_j13743895347838_3_alg».proof.Proof.Hand.Spec
import proofs.«400964_j13743895347838_3_alg».proof.Proof.Hand.K.Blocks

noncomputable section

namespace Cert.Kernel.Hand.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The body's first condition (the accumulator is reset), from the grid coordinates: -/
abbrev cond2_0 (i : grid2.Coords) : Prop := (Scalar.cmpi .ne (Scalar.extui (Scalar.cmpi .eq (BitVec.ofNat 32 (i 1).val) 0#32)) 0#32) = 1#1
/-- it holds at the first column block of each row. -/
theorem hcond2_0 : ∀ t : Fin cfg2.N, cond2_0 (grid2.coords t) ↔ t.val % 16 = 0 := by decide +kernel

/-- The second condition (the output block is stored). -/
abbrev cond2_1 (i : grid2.Coords) : Prop := k2_cond2 i = 1#1
theorem out_idle : ∀ t : Fin cfg2.N, if cond2_1 (grid2.coords t) then cfg2.idle 3 (grid2.coords t) = false
    else cfg2.idle 3 (grid2.coords t) = true ∧ (cfg2.win 3).flush t = false := by decide +kernel

/-- The body on whole buffers at given contents: the accumulator ends at the update of what it held, or of the reset
    value where the first condition holds; the output block, where the second holds, at the code computed from that. -/
theorem run {c : Dev nD} {i : grid2.Coords}
    {arg2 : Memref sig .tc .vmem S2048x512 .f32} {harg2 : arg2.IsWhole} {arg3 : Memref sig .tc .vmem S512x128 .f32} {harg3 : arg3.IsWhole}
    {arg4 : Memref sig .tc .vmem S2048x64 .f32} {harg4 : arg4.IsWhole} {arg5 : Memref sig .tc .vmem S2048x64 .f32} {harg5 : arg5.IsWhole}
    {arg6 : Memref sig .tc .vmem S2048x128 .f32} {harg6 : arg6.IsWhole}
    {x0 : Vec F S2048x512 .f32} {x1 : Vec F S512x128 .f32} {x2 : Vec F S2048x64 .f32} {x3 : Vec F S2048x64 .f32} {xs : Vec F S2048x128 .f32}
    {E : Set ℕ} {K : PUnit → sProp 𝕄} :
    iprop(owns c.tc arg2 fullShare x0 ∗ owns c.tc arg3 fullShare x1 ∗ owns c.tc arg4 fullShare x2
        ∗ owns c.tc arg5 fullShare x3 ∗ owns c.tc arg6 fullShare xs
        ∗ (iprop(owns c.tc arg2 fullShare x0 ∗ owns c.tc arg3 fullShare x1 ∗ owns c.tc arg4 fullShare x2
            ∗ owns c.tc arg5 fullShare (if cond2_1 i then k2_pay3 (k2_pay2 (if cond2_0 i then k2_pay1 else xs) x0 x1) x2 else x3)
            ∗ owns c.tc arg6 fullShare (k2_pay2 (if cond2_0 i then k2_pay1 else xs) x0 x1)) -∗ K ⟨⟩))
      ⊢ wp frame (wpE (defs₀ (F := F)) Variants.none c none) E (cc2__spmm_reparam_kernel i arg2 harg2 arg3 harg3 arg4 harg4 arg5 harg5 arg6 harg6) K := by
  simp only [cc2__spmm_reparam_kernel_eq_skeleton]; unfold cc2__spmm_reparam_kernel_skel owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  by_cases hc0 : cond2_0 i <;> by_cases hc1 : cond2_1 i
  all_goals
    sl_exec (disch := first | exact hc0 | exact hc1)
    sl_step
    iapply Hk
    isplitl [H0]; swap; isplitl [H1]; swap; isplitl [H2]; swap; isplitl [H3]
    all_goals
      iexists _; isplitr; swap; · iassumption
      ipureintro; sl_unfold_words
      try first | rw [if_pos hc1] | rw [if_neg hc1]
      try first | rw [if_pos hc0] | rw [if_neg hc0]
      simp only [read_store, View.readAt_eq_ld, ld_whole, View.readCov_cons_toLoadRect, harg2.read_unread, harg3.read_unread,
        harg4.read_unread, harg5.read_unread, harg6.read_unread]

/-- The accumulator after point `n`: the update, by the point's two blocks, of what point `n - 1` left, or of the reset
    value at the first column block of a row. -/
def acc (c : Dev nD) : (n : ℕ) → n < cfg2.N → Vec F S2048x128 .f32
  | 0, hn => k2_pay2 (k2_pay1 (F := F)) (iblk2 V c 0 ⟨0, hn⟩) (iblk2 V c 1 ⟨0, hn⟩)
  | n + 1, hn =>
    if (n + 1) % 16 = 0 then k2_pay2 (k2_pay1 (F := F)) (iblk2 V c 0 ⟨n + 1, hn⟩) (iblk2 V c 1 ⟨n + 1, hn⟩)
    else k2_pay2 (acc c n (Nat.lt_of_succ_lt hn)) (iblk2 V c 0 ⟨n + 1, hn⟩) (iblk2 V c 1 ⟨n + 1, hn⟩)

theorem acc_reset (c : Dev nD) (t : Fin cfg2.N) (h : t.val % 16 = 0) :
    acc V c t.val t.isLt = k2_pay2 (k2_pay1 (F := F)) (iblk2 V c 0 t) (iblk2 V c 1 t) := by
  obtain ⟨_ | n, hn⟩ := t
  exacts [rfl, if_pos h]

theorem acc_step (c : Dev nD) (t : Fin cfg2.N) (h : t.val % 16 ≠ 0) :
    acc V c t.val t.isLt = k2_pay2 (acc V c (t.val - 1) (Nat.lt_of_le_of_lt (Nat.sub_le _ _) t.isLt)) (iblk2 V c 0 t) (iblk2 V c 1 t) := by
  obtain ⟨_ | n, hn⟩ := t
  exacts [absurd (Nat.zero_mod _) h, if_neg h]

/-- One point's update, from contents that are the previous point's wherever there is a previous point. -/
theorem acc_next (c : Dev nD) (t : Fin cfg2.N) (d : Vec F S2048x128 .f32) (hd : ∀ n hn, t.val = n + 1 → d = acc V c n hn) :
    k2_pay2 (if cond2_0 (grid2.coords t) then k2_pay1 else d) (iblk2 V c 0 t) (iblk2 V c 1 t) = acc V c t.val t.isLt := by
  by_cases h : t.val % 16 = 0
  · rw [if_pos ((hcond2_0 t).mpr h), acc_reset V c t h]
  · rw [if_neg (mt (hcond2_0 t).mp h), acc_step V c t h, ← hd (t.val - 1) _ (by omega)]

abbrev scM : Memref sig .tc .vmem S2048x128 .f32 := Memref.whole cc2_scratch0

abbrev restBut (c : Dev nD) : sProp 𝕄 :=
  Pipeline.scopedRestBut (Ix := Unit) (Name := ℕ) (U := UR sig nD τ) (Lvl := ℕ) (Val := Elt F) spec2 c [cc2_scratch0]

/-- What the region is entered with, the accumulator split off at some contents. -/
theorem PhiA_eq (c : Dev nD) :
    (Pipeline.ΦA spec2 c : sProp 𝕄)
      = iprop(iprop(iprop((∃ d, owns c.tc scM fullShare d)) ∗ restBut (F := F) c) ∗ (∃ r, prngReg c r)) := by
  unfold Pipeline.ΦA; rw [scopedRest2_split]; simp only [scM, owns_whole]; try rfl

/-- Before position `n` the accumulator is at some contents: after a point, those the point left. -/
def PhiS (c : Dev nD) (n : ℕ) : sProp 𝕄 :=
  iprop(iprop(iprop(∃ d, ⌜∀ m hm, n = m + 1 → d = acc V c m hm⌝ ∗ owns c.tc scM fullShare d) ∗ restBut (F := F) c) ∗ (∃ r, prngReg c r))

/-- The proof data: after the body each input is at its block and the output at the code computed from the accumulator. -/
def dat (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc V c t.val t.isLt) (iblk2 V c 2 t)
  Φ t := PhiS V c t.val
  q _ := fullShare
  owed _ := 0

theorem A_eq (c : Dev nD) (w : Fin cfg2.W) : (dat V c).A w = V c (Pipeline.arrRef spec2 w) := by
  dsimp only [dat]

theorem Phi_eq (c : Dev nD) (t : Fin (cfg2.N + 1)) : (dat V c).Φ t = PhiS V c t.val := rfl

theorem after_0 (c : Dev nD) (t : Fin cfg2.N) : (dat V c).after 0 t = iblk2 V c 0 t := by dsimp only [dat]
theorem after_1 (c : Dev nD) (t : Fin cfg2.N) : (dat V c).after 1 t = iblk2 V c 1 t := by dsimp only [dat]
theorem after_2 (c : Dev nD) (t : Fin cfg2.N) : (dat V c).after 2 t = iblk2 V c 2 t := by dsimp only [dat]

theorem after_out (c : Dev nD) (t : Fin cfg2.N) (h : t.val % 16 = 15) :
    (dat V c).after 3 t = k2_pay3 (acc V c t.val t.isLt) (iblk2 V c 2 t) := by dsimp only [dat]

/-- When the body runs each input is at its block. -/
theorem before_in (c : Dev nD) (t : Fin cfg2.N) : (∀ d, (dat V c).before 0 t d = iblk2 V c 0 t)
    ∧ (∀ d, (dat V c).before 1 t d = iblk2 V c 1 t) ∧ ∀ d, (dat V c).before 2 t d = iblk2 V c 2 t := by
  refine ⟨fun d => ?_, fun d => ?_, fun d => ?_⟩ <;>
    exact ((dat V c).before_in_eq_fetched _ rfl (fun _ => rfl) (fun _ _ _ => rfl)
      (fun t => by dsimp only [dat, Dat.blockOf, iblk2]; try rfl) t d).trans (by dsimp only [dat, Dat.fetched, Dat.blockOf, iblk2]; try rfl)

/-- The output at the code computed from the accumulator where it is stored, and as found elsewhere, is what the body is to leave. -/
theorem leaves_3 (c : Dev nD) (t : Fin cfg2.N) (d) (X) (hX : X = acc V c t.val t.isLt) :
    owns c.tc ((cfg2.win 3).stage (cfg2.slots t 3)) fullShare
        (if cond2_1 (grid2.coords t) then k2_pay3 X (iblk2 V c 2 t) else (dat V c).before 3 t d) ⊢ (dat V c).leavesExact 3 t := by
  have h := out_idle t
  subst hX
  by_cases hc : cond2_1 (grid2.coords t)
  · rw [if_pos hc] at h ⊢; unfold Dat.leavesExact; rw [h, show (dat V c).after 3 t = _ from by dsimp only [dat]]
  · rw [if_neg hc] at h ⊢; rw [Dat.leavesExact_idle _ 3 t h.1 h.2]
    iintro H; iexists d; iexact H

/-- At every point the body runs once from the invariant, whatever the accumulator held, to the invariant at the next point. -/
theorem body_obligation (c : Dev nD) : BodyObligation (dat (F := F) V c) (defs₀ (F := F)) Variants.none () Set.univ := fun t => by
  rw [bigSep_W2, bigSep_W2, show (dat V c).owesAt () t.succ = (dat V c).owesAt () t.castSucc from rfl]
  simp only [Phi_eq, PhiS, Fin.coe_castSucc, Fin.val_succ, before_in V c t, after_0, after_1, after_2]
  show _ ⊢ wp _ _ _ (bodyAt2 t) _
  iintro ⟨⟨⟨⟨%ds, %hd, HS⟩, HR⟩, Hg⟩, Ho, ⟨%d0, H0⟩, ⟨%d1, H1⟩, ⟨%d2, H2⟩, ⟨%d3, H3⟩⟩
  iapply run
  iframe H0 H1 H2 H3 HS
  iintro ⟨H0, H1, H2, H3, HS⟩
  iframe HR Hg Ho H0 H1 H2
  isplitl [HS]
  · iexists _; isplitr; swap; · iexact HS
    ipureintro; intro m hm e; obtain rfl := Nat.succ.inj e; exact acc_next V c t ds hd
  iapply (leaves_3 V c t d3 _ (acc_next V c t ds hd)); iexact H3

theorem hin (c : Dev nD) : (Pipeline.ΦA spec2 c : sProp 𝕄) ⊢ (dat V c).Φ 0 := by
  rw [PhiA_eq, Phi_eq, PhiS]
  iintro ⟨⟨⟨%d, HS⟩, HR⟩, Hg⟩
  iframe HR Hg
  iexists d; isplitr; · ipureintro; exact fun m _ e => absurd e (Nat.succ_ne_zero m).symm
  iexact HS

theorem hout (c : Dev nD) : (dat V c).Φ (Fin.last cfg2.N) ⊢ (Pipeline.ΦA spec2 c : sProp 𝕄) := by
  rw [PhiA_eq, Phi_eq, PhiS]
  iintro ⟨⟨⟨%d, -, HS⟩, HR⟩, Hg⟩
  iframe HR Hg
  iexists d; iexact HS

end Cert.Kernel.Hand.R2

end
-- ==== Proof.Hand.K.Reg3.lean ====
import Idealize.ShloMosaic.Lib.Pipeline.Value
import proofs.«400964_j13743895347838_3_alg».proof.Proof.Hand.Spec
import proofs.«400964_j13743895347838_3_alg».proof.Proof.Hand.K.Blocks

noncomputable section

namespace Cert.Kernel.Hand.R3

open Idealize.ShloMosaic Idealize.ShloMosaic.TcCoe Idealize.SL Idealize.SL.RA Idealize.SL.BI Idealize.SL.BI.BIBase Idealize.SL.BI.Laws Idealize.SL.Sem
open scoped Idealize.SL.BI
open Idealize.ShloMosaic.Pipeline (Dat BodyObligation)
open Cert.Kernel.Gen Cert.Hand

variable {F : FTy → Type} [FloatOps F]

local notation "𝕄" => MT nD τ sig Unit (Elt F) ℕ (UR sig nD τ) ℕ

variable (V : (c : Dev nD) → (b : Ref sig .tc) → Buf (Elt F) ((c : Thread nD τ).loc b))

local macro_rules | `(tactic| sl_pure) => `(tactic| simp only [read_store, readAt_whole])

/-- The body loads its four input buffers whole and stores the payload of the four over the whole output buffer. -/
theorem sound_kernel (c : Dev nD) (E : Set ℕ) (i : grid3.Coords) (arg2 arg3 arg4 arg5 : Memref sig .tc .vmem S2048x64 .bf16)
    (harg2 : arg2.IsWhole) (harg3 : arg3.IsWhole) (harg4 : arg4.IsWhole) (harg5 : arg5.IsWhole)
    (arg6 : Memref sig .tc .vmem S2048x2048 .f32) (harg6 : arg6.IsWhole) (x0 x1 x2 x3 : Vec F S2048x64 .bf16) (K : PUnit → sProp 𝕄) :
    iprop(owns c.tc arg2 fullShare x0 ∗ owns c.tc arg3 fullShare x1 ∗ owns c.tc arg4 fullShare x2 ∗ owns c.tc arg5 fullShare x3
        ∗ (∃ d, owns c.tc arg6 fullShare d)
        ∗ (iprop(owns c.tc arg2 fullShare x0 ∗ owns c.tc arg3 fullShare x1 ∗ owns c.tc arg4 fullShare x2 ∗ owns c.tc arg5 fullShare x3
            ∗ owns c.tc arg6 fullShare (k3_pay1 x0 x1 x2 x3)) -∗ K ⟨⟩))
      ⊢ wp frame (wpE (defs₀ (F := F)) Variants.none c none) E (cc3__decode_kernel i arg2 harg2 arg3 harg3 arg4 harg4 arg5 harg5 arg6 harg6) K := by
  simp only [cc3__decode_kernel_eq_skeleton]; unfold cc3__decode_kernel_skel owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  sl_close

/-- The arrays as the region finds them; after the body each input's buffer at its block and the output's at the payload of the four blocks.
    The two windows that read one array hold it at the two halves of the full share. -/
def dat (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => k3_pay1 (iblk3 V c 0 t) (iblk3 V c 1 t) (iblk3 V c 2 t) (iblk3 V c 3 t)
  Φ _ := Pipeline.ΦA spec3 c
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg3.W) : (dat V c).A w = V c (Pipeline.arrRef spec3 w) := rfl

theorem after_out (c : Dev nD) (t : Fin cfg3.N) :
    (dat V c).after 4 t = k3_pay1 (iblk3 V c 0 t) (iblk3 V c 1 t) (iblk3 V c 2 t) (iblk3 V c 3 t) := by
  dsimp only [dat]

/-- What the body finds in an input window's buffer is what it leaves there: the window's block. -/
theorem before_in (c : Dev nD) : ∀ w : Fin cfg3.W, w ≠ 4 → ∀ t d, (dat V c).before w t d = (dat V c).after w t
  | 4, h => absurd rfl h
  | 0, _ | 1, _ | 2, _ | 3, _ => fun t d =>
    ((dat V c).before_in_eq_fetched _ rfl (fun _ => rfl) (fun _ _ _ => rfl) (fun _ => rfl) t d).trans rfl

/-- The invariant and the core's debts pass through the body unread. -/
theorem body_obligation (c : Dev nD) : BodyObligation (dat (F := F) V c) (defs₀ (F := F)) Variants.none () Set.univ := fun t => by
  rw [bigSep_W3, bigSep_W3]
  show _ ⊢ wp _ _ _ (bodyAt3 t) fun _ => iprop(_ ∗ (dat V c).owesAt () t.castSucc ∗ _)
  simp (disch := decide) only [before_in V c]
  dsimp only [dat]
  iintro ⟨HΦ, Ho, ⟨%d0, H0⟩, ⟨%d1, H1⟩, ⟨%d2, H2⟩, ⟨%d3, H3⟩, ⟨%d4, H4⟩⟩
  iapply (sound_kernel c _ _ _ _ _ _ _ _ _ _ _ _ _ _ _ _ _)
  iframe H0 H1 H2 H3
  isplitl [H4]; · iexists _; iexact H4
  iintro ⟨H0, H1, H2, H3, H4⟩
  iframe

theorem hin (c : Dev nD) : (Pipeline.ΦA spec3 c : sProp 𝕄) ⊢ (dat V c).Φ 0 := .rfl

theorem hout (c : Dev nD) : (dat V c).Φ (Fin.last cfg3.N) ⊢ (Pipeline.ΦA spec3 c : sProp 𝕄) := .rfl

/-- A core's unscoped buffers at `W` are the three buffers behind the five arrays and the rest. -/
theorem split₀ (c : Dev nD) (W : (b : Ref sig .tc) → Buf (Elt F) (c.tc.loc b)) :
    (unscopedBufs c W : sProp 𝕄) = iprop((Pipeline.arrBufs spec3 c W : sProp 𝕄) ∗ Pipeline.unscopedRest spec3 c W) :=
  Pipeline.unscopedBufs_split₀ (fun _ : Unit => cfg3) () winFacts₀3.arr_unscoped c W

/-- The three buffers whole at `W` are the five arrays at the windows' shares: the two halves of a full share make it. -/
theorem arrays_iff (c : Dev nD) (W : (b : Ref sig .tc) → Buf (Elt F) (c.tc.loc b))
    (G : (w : Fin cfg3.W) → Buf (Elt F) ((cfg3.win w).arr.view.loc c.tc)) (hG : ∀ w, G w = W (Pipeline.arrRef spec3 w)) :
    (Pipeline.arrBufs spec3 c W : sProp 𝕄) ⊣⊢ (dat V c).arrays G := by
  rw [show ((dat V c).arrays G : sProp 𝕄)
      = iprop((c.tc.loc main_v16 ↦{fullShare.left} W main_v16) ∗ (c.tc.loc main_v19 ↦{fullShare.left} W main_v19)
          ∗ (c.tc.loc main_v16 ↦{fullShare.right} W main_v16) ∗ (c.tc.loc main_v19 ↦{fullShare.right} W main_v19)
          ∗ (c.tc.loc main_v20 ↦{fullShare} W main_v20)) from by
        unfold Dat.arrays; rw [bigSep_W3]; simp only [View.set_whole, hG]; rfl,
    show (Pipeline.arrBufs spec3 c W : sProp 𝕄)
      = iprop((c.tc.loc main_v16 ↦{fullShare} W main_v16) ∗ (c.tc.loc main_v19 ↦{fullShare} W main_v19) ∗ (c.tc.loc main_v20 ↦{fullShare} W main_v20)) from
        bigSep_eq_bigSepL_of_eq [main_v16, main_v19, main_v20] (by decide) (by decide) _]
  have m := PosShare.mem_left_op_right fullShare
  constructor
  · iintro ⟨A, B, C⟩
    icases (pointsTo_share m).1 $$ A with ⟨Al, Ar⟩
    icases (pointsTo_share m).1 $$ B with ⟨Bl, Br⟩
    iframe
  · iintro ⟨Al, Bl, Ar, Br, C⟩
    iframe C
    isplitl [Al Ar] <;> iapply (pointsTo_share m).2 <;> iframe

theorem entry_split (c : Dev nD) :
    (unscopedBufs c (V c) : sProp 𝕄) ⊢ iprop((dat V c).arrays ((dat V c).arrAt · 0) ∗ Pipeline.unscopedRest spec3 c (V c)) := by
  rw [split₀]; exact sep_mono (arrays_iff V c _ _ fun _ => rfl).1 .rfl

/-- On exit the inputs are as entered and the result is at its final contents. -/
theorem exit_join (c : Dev nD) (V' : (b : Ref sig .tc) → Buf (Elt F) ((c : Thread nD τ).loc b))
    (ho : V' main_v20 = (dat V c).arrAt 4 cfg3.N) (hr : ∀ b : Ref sig .tc, b ≠ main_v20 → V' b = V c b) :
    iprop((dat V c).arrays ((dat V c).arrAt · cfg3.N) ∗ Pipeline.unscopedRest spec3 c (V c)) ⊢ (unscopedBufs c V' : sProp 𝕄) := by
  have e : ∀ w, (dat V c).arrAt w cfg3.N = V' (Pipeline.arrRef spec3 w)
    | 4 => ho.symm
    | 0 | 1 | 2 | 3 => ((dat V c).arrAt_in _ rfl _).trans (hr _ (by decide)).symm
  have hrest : (Pipeline.unscopedRest spec3 c (V c) : sProp 𝕄) = Pipeline.unscopedRest spec3 c V' :=
    bigSep_congr fun b hb => by
      rw [hr b fun e => (Finset.mem_sdiff.mp hb).2 (e ▸ Finset.mem_image.mpr ⟨4, Finset.mem_univ _, rfl⟩)]
  rw [split₀ c V', hrest]; exact sep_mono (arrays_iff V c _ _ e).2 .rfl

end Cert.Kernel.Hand.R3

end
-- ==== Proof.Hand.K.Run.lean ====
import proofs.«400964_j13743895347838_3_alg».proof.Proof.Gen.Kernel.Regions
import proofs.«400964_j13743895347838_3_alg».proof.Proof.LibRun
import proofs.«400964_j13743895347838_3_alg».proof.Proof.Hand.K.Reg0
import proofs.«400964_j13743895347838_3_alg».proof.Proof.Hand.K.Reg1
import proofs.«400964_j13743895347838_3_alg».proof.Proof.Hand.K.Reg2
import proofs.«400964_j13743895347838_3_alg».proof.Proof.Hand.K.Reg3

noncomputable section

namespace Cert.Kernel.Hand.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen Cert.Kernel.Hand Cert.Hand

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers at launch, -/
abbrev W0 : Dev nD → Valuation τ sig (Elt F) := fun c b => (s₀ m ρ).mem ((c : Dev nD), b)
/-- after the first host stretch, -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- after region 0: its arrays at what the write-backs leave, -/
def W2 (c : Dev nD) : Valuation τ sig (Elt F) :=
  Pipeline.withArrays spec0 c (W1 m ρ c) fun w => (R0.dat (V1 m ρ) c).arrAt w cfg0.N
abbrev V2 : (c : Dev nD) → (b : Ref sig .tc) → Buf (Elt F) ((c : Thread nD τ).loc b) := fun c b => W2 m ρ c b
/-- after region 1, -/
def W3 (c : Dev nD) : Valuation τ sig (Elt F) :=
  Pipeline.withArrays spec1 c (W2 m ρ c) fun w => (R1.dat (V2 m ρ) c).arrAt w cfg1.N
abbrev V3 : (c : Dev nD) → (b : Ref sig .tc) → Buf (Elt F) ((c : Thread nD τ).loc b) := fun c b => W3 m ρ c b
/-- after region 2, -/
def W4 (c : Dev nD) : Valuation τ sig (Elt F) :=
  Pipeline.withArrays spec2 c (W3 m ρ c) fun w => (R2.dat (V3 m ρ) c).arrAt w cfg2.N
/-- after the second host stretch, -/
abbrev W5 : Dev nD → Valuation τ sig (Elt F) := fun c => StableHlo.after hostOps3 (W4 m ρ c)
abbrev V5 : (c : Dev nD) → (b : Ref sig .tc) → Buf (Elt F) ((c : Thread nD τ).loc b) := fun c b => W5 m ρ c b
/-- and after region 3, two of whose windows read one array: only the result array changes. -/
def W6 (c : Dev nD) : Valuation τ sig (Elt F) :=
  Function.update (W5 m ρ c) (Proc.devRef .tc main_v20) ((R3.dat (V5 m ρ) c).arrAt 4 cfg3.N)

theorem W2_arr (c : Dev nD) (w : Fin cfg0.W) : W2 m ρ c (Proc.devRef .tc (Pipeline.arrRef spec0 w)) = (R0.dat (V1 m ρ) c).arrAt w cfg0.N :=
  Pipeline.withArrays_arr spec0 launch0.win.arr_inj c _ _ w
theorem W3_arr (c : Dev nD) (w : Fin cfg1.W) : W3 m ρ c (Proc.devRef .tc (Pipeline.arrRef spec1 w)) = (R1.dat (V2 m ρ) c).arrAt w cfg1.N :=
  Pipeline.withArrays_arr spec1 launch1.win.arr_inj c _ _ w
theorem W4_arr (c : Dev nD) (w : Fin cfg2.W) : W4 m ρ c (Proc.devRef .tc (Pipeline.arrRef spec2 w)) = (R2.dat (V3 m ρ) c).arrAt w cfg2.N :=
  Pipeline.withArrays_arr spec2 launch2.win.arr_inj c _ _ w
theorem W2_keep (c : Dev nD) (b : Ref sig .tc) (hb : ∀ w, Pipeline.arrRef spec0 w = b → (cfg0.win w).isOut = false) :
    W2 m ρ c (Proc.devRef .tc b) = W1 m ρ c (Proc.devRef .tc b) :=
  reg_keep cfg0 (R0.dat (V1 m ρ) c) launch0.win.arr_inj _ (R0.A_eq (V1 m ρ) c) b hb
theorem W3_keep (c : Dev nD) (b : Ref sig .tc) (hb : ∀ w, Pipeline.arrRef spec1 w = b → (cfg1.win w).isOut = false) :
    W3 m ρ c (Proc.devRef .tc b) = W2 m ρ c (Proc.devRef .tc b) :=
  reg_keep cfg1 (R1.dat (V2 m ρ) c) launch1.win.arr_inj _ (R1.A_eq (V2 m ρ) c) b hb
theorem W4_keep (c : Dev nD) (b : Ref sig .tc) (hb : ∀ w, Pipeline.arrRef spec2 w = b → (cfg2.win w).isOut = false) :
    W4 m ρ c (Proc.devRef .tc b) = W3 m ρ c (Proc.devRef .tc b) :=
  reg_keep cfg2 (R2.dat (V3 m ρ) c) launch2.win.arr_inj _ (R2.A_eq (V3 m ρ) c) b hb
theorem W6_of_ne (c : Dev nD) (b : Ref sig .tc) (hb : b ≠ main_v20) : W6 m ρ c (Proc.devRef .tc b) = W5 m ρ c (Proc.devRef .tc b) :=
  Function.update_of_ne (StableHlo.devRef_ne_of_ne hb) ..

/-- A buffer that no host operation writes and that is no region's output array ends as launched. -/
theorem W6_kept (c : Dev nD) (b : Ref sig .tc) (h6 : b ≠ main_v20) (h5 : b ∉ hostOps3_W)
    (h4 : ∀ w, Pipeline.arrRef spec2 w = b → (cfg2.win w).isOut = false) (h3 : ∀ w, Pipeline.arrRef spec1 w = b → (cfg1.win w).isOut = false)
    (h2 : ∀ w, Pipeline.arrRef spec0 w = b → (cfg0.win w).isOut = false) (h1 : b ∉ hostOps0_W) :
    W6 m ρ c (Proc.devRef .tc b) = m ((c : Thread nD τ).loc b) :=
  (W6_of_ne m ρ c b h6).trans <| (StableHlo.after_of_writes_sub hostOps3 _ hostOps3_writes h5).trans <|
    (W4_keep m ρ c b h4).trans <| (W3_keep m ρ c b h3).trans <| (W2_keep m ρ c b h2).trans <|
    StableHlo.after_of_writes_sub hostOps0 _ hostOps0_writes h1

/-- Every region's proof data, each at the contents its region is entered with. -/
def pdats : (p : Fin 4) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V2 m ρ) c
  | ⟨2, _⟩ => fun c => R2.dat (V3 m ρ) c
  | ⟨3, _⟩ => fun c => R3.dat (V5 m ρ) c
abbrev L : GSem nD τ sig → Finset Unit := fun _ => ∅
abbrev lv : GSem nD τ sig → Unit → ℕ := fun _ _ => 0

set_option backward.isDefEq.respectTransparency.types false in
/-- @main as segments: the two host stretches and the four regions, each between its two boundary contents. -/
abbrev segs : List (Pipeline.Seg (pcfgs (F := F)) adm (pdats m ρ) () defs₀ Variants.none L lv) :=
  [ .host (hseg hostOps0 hostOps0_sub hostOps0_fresh (W0 m ρ)),
    .region (regKit cfgs (pdats m ρ) defs₀ _ L lv 0 launch0 (W1 m ρ) (R0.body_obligation (V1 m ρ)) (fun _ _ => rfl) (fun _ _ => trivial)
      (fun _ _ => rfl) (fun _ _ => rfl) (R0.hin (V1 m ρ)) (R0.hout (V1 m ρ))),
    .region (regKit cfgs (pdats m ρ) defs₀ _ L lv 1 launch1 (W2 m ρ) (R1.body_obligation (V2 m ρ)) (fun _ _ => rfl) (fun _ _ => trivial)
      (fun _ _ => rfl) (fun _ _ => rfl) (R1.hin (V2 m ρ)) (R1.hout (V2 m ρ))),
    .region (regKit cfgs (pdats m ρ) defs₀ _ L lv 2 launch2 (W3 m ρ) (R2.body_obligation (V3 m ρ)) (fun _ _ => rfl) (fun _ _ => trivial)
      (fun _ _ => rfl) (fun _ _ => rfl) (R2.hin (V3 m ρ)) (R2.hout (V3 m ρ))),
    .host (hseg hostOps3 hostOps3_sub hostOps3_fresh (W4 m ρ)),
    .region (regOf cfgs (pdats m ρ) defs₀ _ L lv 3 winFacts₀3 block_pos3 stage_whole3 (W5 m ρ) (W6 m ρ) (R3.body_obligation (V5 m ρ))
      (fun _ _ => rfl) (fun _ _ => trivial) (R3.hin (V5 m ρ)) (R3.hout (V5 m ρ)) (R3.entry_split (V5 m ρ))
      fun c => R3.exit_join (V5 m ρ) c (fun b => W6 m ρ c b) (Function.update_self ..) fun b hb => W6_of_ne m ρ c b hb) ]

set_option backward.isDefEq.respectTransparency.types false in
/-- Every weakly fair execution of @main terminates, nothing faulting, with every unscoped buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W6 m ρ c (Proc.devRef .tc b)) :=
  run_held cfgs cellOf_inj (pdats m ρ) defs₀ _ L lv (fun _ _ => rfl) m ρ main (segs m ρ)
    (fun c => (main_chain c).trans (by chain_rfl))
    (by simp only [segs, Pipeline.Seg.pipes_host, Pipeline.Seg.pipes_region, Pipeline.Seg.pipes_nil]; decide) (W6 m ρ)
    ⟨fun _ => .rfl, fun _ => .rfl, fun _ => .rfl, fun _ => .rfl, fun _ => .rfl, fun _ => .rfl, fun _ => .rfl⟩

/-- The result array ends at what region 3's write-backs leave, every argument as launched. -/
theorem run_result : θ_run defs (onTc (τ := τ) (main (F := F))) ⟨m, fun _ => 0, ρ⟩ (fun r => ∀ c : Dev nD,
      r.2.mem ((c.tc : Thread nD τ).loc main_v20) = (R3.dat (V5 m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => by
    refine ⟨(h c main_v20 (by decide)).trans (Function.update_self ..), ?_, ?_, ?_, ?_, ?_, ?_, ?_, ?_⟩ <;>
      exact (h c _ (by decide)).trans (W6_kept m ρ c _ (by decide) (by decide) (by decide) (by decide) (by decide) (by decide)))
    (run_all m ρ)

end Cert.Kernel.Hand.Run

end
-- ==== Proof.Hand.Ref.lean ====
import proofs.«400964_j13743895347838_3_alg».proof.Proof.Gen.ReferenceIdeal.Read
import proofs.«400964_j13743895347838_3_alg».proof.Proof.Hand.Spec
import Idealize.ShloMosaic.Lib.StableHlo.Predicate

noncomputable section

namespace Cert.ReferenceIdeal.Hand

open Cert.ReferenceIdeal Cert.ReferenceIdeal.Gen Cert.ReferenceIdeal.Read Cert.Spec Idealize.ShloMosaic
  Idealize.ShloMosaic.ValueIdx Idealize.ShloMosaic.TcCoe Idealize.SL.Sem Idealize.ShloMosaic.StableHlo.Predicate

/-- Group the edges into n by their source: each contributes to the one term of the product whose column is its source. -/
theorem sum_edges_eq_mm (src dst : ℕ → ℕ) (w : ℕ → ℝ) (h : ℕ → ℕ → ℝ) (hsrc : ∀ e, src e < 8192) (n j : ℕ) :
    ∑ e ∈ (Finset.range 524288).filter (fun e => dst e = n), h (src e) j * w e
      = mm 8192 (adj src dst w) h n j := by
  unfold mm adj
  refine (Finset.sum_fiberwise_of_maps_to (g := src) (fun e _ => Finset.mem_range.2 (hsrc e)) _).symm.trans
    (Finset.sum_congr rfl fun k _ => ?_)
  rw [Finset.sum_mul, Finset.filter_filter]
  exact Finset.sum_congr rfl fun e he => by rw [(Finset.mem_filter.1 he).2.2, mul_comm]

/-- Reading a real number as an extended real is additive. -/
theorem coe_sum {ι : Type*} (s : Finset ι) (f : ι → ℝ) :
    ((∑ i ∈ s, f i : ℝ) : EReal) = ∑ i ∈ s, ((f i : ℝ) : EReal) :=
  map_sum (⟨⟨Real.toEReal, EReal.coe_zero⟩, EReal.coe_add⟩ : ℝ →+ EReal) f s

/-- A row of real numbers contracted with a column is the entry of the real matrix product. -/
theorem dot_coe (K : ℕ) (a b : ℕ → ℕ → ℝ) (p q : ℕ) :
    (∑ k : Fin K, ((a p k.val : ℝ) : EReal) * ((b k.val q : ℝ) : EReal)) = ((mm K a b p q : ℝ) : EReal) := by
  simp only [mm, coe_sum, Finset.sum_range, EReal.coe_mul]

theorem coe_max_zero (a : ℝ) : max ((a : ℝ) : EReal) 0 = ((max a 0 : ℝ) : EReal) :=
  (EReal.coe_strictMono.monotone.map_max (b := 0)).symm

/-- A node index has its sign bit clear: it is not negative as a signed word … -/
theorem slt_zero_of_lt (b : BitVec 32) (h : b.toNat < 8192) : IntOp.cmpi .slt b 0#32 = 0#1 :=
  eq_zero_of_ne_one fun e => Nat.not_lt_zero _ ((slt_iff_toNat (h.trans (by decide)) (by decide)).1 e)

/-- … and read signed it is the node's number. -/
theorem toInt_natOf {x : S524288.Idx → BitVec 32} (h : InRange x) (e : Fin 524288) :
    (x (ix1 e)).toInt = (natOf x e.val : ℤ) := by
  rw [toInt_eq_toNat_of_lt ((h _).trans (by decide)), natOf, dif_pos e.isLt]

section Rows

/-- The dimension numbers of "rows of an [N, C] table at an [E, 1] column of indices" are well formed for the gather … -/
abbrev RowsWF (N E C : ℕ) : Prop :=
  GatherDims.WF ⟨2, ![N, C]⟩ ⟨2, ![E, 1]⟩ ⟨2, ![E, C]⟩ [1] [0] [] [0] [] 1 ![1, C]

/-- … and for the scatter-add into such rows. -/
abbrev ScatWF (N E C : ℕ) : Prop := ScatterDims.WF ⟨2, ![N, C]⟩ ⟨2, ![E, 1]⟩ ⟨2, ![E, C]⟩ [1] [0] [0] 1

variable {N E C w : ℕ} (wg : RowsWF N E C) (ws : ScatWF N E C)
  (idx : IVec ⟨2, ![E, 1]⟩ w) (v : (⟨1, ![E]⟩ : Shape).Idx → BitVec w) (hv : ∀ p, idx p = v (ix1 (p 0)))

abbrev rowsDims : GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wg

abbrev scatRows : ScatterDims ⟨2, ![N, C]⟩ ⟨2, ![E, 1]⟩ ⟨2, ![E, C]⟩ where
  updateWindowDims := [1]
  insertedWindowDims := [0]
  scatterDimsToOperandDims := [0]
  indexVectorDim := 1
  wf := ws

include hv

/-- With the index column the array v laid as a column, the gather reads at (e, c) row "v e, signed and clamped", column c. -/
theorem gather_rows_apply {α : Type} (x : (⟨2, ![N, C]⟩ : Shape).Idx → α) (y : (⟨2, ![E, C]⟩ : Shape).Idx)
    (r : Fin N) (hr : min (v (ix1 (y 0))).toInt.toNat (N - 1) = r.val) :
    Host.gather (rowsDims wg) x idx y = x (ix2 r (y 1)) := by
  unfold Host.gather
  congr 1
  funext a
  refine Fin.ext ?_
  match a with
  | ⟨0, _⟩ =>
    show min (idx _).toInt.toNat (N - 1) + 0 + 0 = r.val
    rw [hv]
    exact hr
  | ⟨1, _⟩ => exact Nat.zero_add _

omit hv in
/-- An update lands at i exactly when its start plus its window coordinate is i's coordinate on every axis. -/
theorem resultIdx?_eq_some {s si u : Shape} (d : ScatterDims s si u) (j : u.Idx) (idx : IVec si w) (i : s.Idx) :
    d.resultIdx? j idx = some i ↔ ∀ a, d.start j idx a + d.window j a = ((i a).val : ℤ) := by
  unfold ScatterDims.resultIdx?
  split
  · next h =>
    rw [Option.some.injEq, funext_iff]
    exact forall_congr' fun a => by
      have := h a
      rw [Fin.ext_iff]
      constructor <;> intro e <;> simp only [] at e ⊢ <;> omega
  · next h =>
    refine iff_of_false (fun e => nomatch e) fun h' => h fun a => ?_
    have := h' a
    have := (i a).isLt
    omega

/-- For the scatter of rows: the index, read signed, is the row, and the update's column is the column. -/
theorem scat_rows_iff (j : (⟨2, ![E, C]⟩ : Shape).Idx) (i : (⟨2, ![N, C]⟩ : Shape).Idx) :
    (scatRows ws).resultIdx? j idx = some i ↔ (v (ix1 (j 0))).toInt = ((i 0).val : ℤ) ∧ (j 1).val = (i 1).val := by
  rw [resultIdx?_eq_some, Fin.forall_fin_two]
  refine and_congr ?_ ?_
  · show (idx _).toInt + ((0 : ℕ) : ℤ) = _ ↔ _
    rw [hv, Nat.cast_zero, add_zero]
    rfl
  · show (0 : ℤ) + ((j 1).val : ℤ) = _ ↔ _
    rw [zero_add, Nat.cast_inj]

/-- The updates that land at (n, c), summed: the updates (e, c) over the rows e whose index is n. -/
theorem scat_sum (dst : ℕ → ℕ) (hdst : ∀ e : Fin E, (v (ix1 e)).toInt = (dst e.val : ℤ))
    (g : ℕ → ℕ → ℝ) (i : (⟨2, ![N, C]⟩ : Shape).Idx)
    [DecidablePred ((scatRows ws).resultIdx? · idx = some i)] :
    ∑ j ∈ Finset.univ.filter ((scatRows ws).resultIdx? · idx = some i), coe2 g j
      = ((∑ e ∈ (Finset.range E).filter (dst · = (i 0).val), g e (i 1).val : ℝ) : EReal) := by
  classical
  rw [Finset.filter_congr fun j _ => scat_rows_iff ws idx v hv j i, Finset.sum_filter, sum_idx2, coe_sum,
    Finset.sum_filter, Finset.sum_range]
  refine Finset.sum_congr rfl fun a _ => ?_
  rw [Finset.sum_eq_single_of_mem (⟨(i 1).val, idx2_lt1 i⟩ : Fin C) (Finset.mem_univ _)
    fun b _ hb => if_neg fun h => hb (Fin.ext h.2)]
  show (if (v (ix1 a)).toInt = ((i 0).val : ℤ) ∧ (i 1).val = (i 1).val then ((g a.val (i 1).val : ℝ) : EReal) else 0) = _
  simp only [hdst a, Nat.cast_inj, and_true]

end Rows

/-- Gather a real table's rows at the edges' sources, scale by the weights, add into zeros at their destinations: A · table. -/
theorem spmm_real {C : ℕ} (wg : RowsWF 8192 524288 C) (ws : ScatWF 8192 524288 C)
    {t z : FVec Ideal ⟨2, ![8192, C]⟩ .f32} {tr : ℕ → ℕ → ℝ} (ht : t = coe2 tr) (hz : ∀ i, z i = 0)
    {sidx didx : IVec ⟨2, ![524288, 1]⟩ 32} {x1 x2 : S524288.Idx → BitVec 32}
    (h1 : InRange x1) (h2 : InRange x2) (hs : ∀ p, sidx p = x1 (ix1 (p 0))) (hd : ∀ p, didx p = x2 (ix1 (p 0)))
    {wv : FVec Ideal ⟨2, ![524288, C]⟩ .f32} {wr : ℕ → ℝ} (hw : ∀ j, wv j = ((wr (j 0).val : ℝ) : EReal)) :
    Host.scatterAdd (scatRows ws) z didx (mulf (Host.gather (rowsDims wg) t sidx) wv)
      = coe2 (mm 8192 (adj (natOf x1) (natOf x2) wr) tr) := by
  classical
  have hupd : mulf (Host.gather (rowsDims wg) t sidx) wv = coe2 fun e c => tr (natOf x1 e) c * wr e := funext fun j => by
    rw [mulf_apply, gather_rows_apply wg sidx x1 hs t j ⟨natOf x1 (j 0).val, natOf_lt h1 _⟩
      (by have := toInt_natOf h1 (j 0); have := natOf_lt h1 (j 0).val; show min _ _ = natOf x1 (j 0).val; omega), hw, ht]
    exact (EReal.coe_mul _ _).symm
  funext i
  rw [Host.scatterAdd, Ideal.hostScatterAdd_def, Ideal.hostScatterAdd, hz i, zero_add, hupd,
    scat_sum ws didx x2 hd (natOf x2) (toInt_natOf h2) _ i]
  exact congrArg Real.toEReal (sum_edges_eq_mm (natOf x1) (natOf x2) wr tr (natOf_lt h1) (i 0).val (i 1).val)

section Stages

variable {x0 : FVec Ideal S8192x512 .f32} {x1 x2 : IVec S524288 32} {x3 : FVec Ideal S524288 .f32}
  {x4 : FVec Ideal S8192x64 .f32} {x5 : FVec Ideal S512x256 .f32} {x6 x7 : FVec Ideal S256x64 .f32}
  {A t : ℕ → ℕ → ℝ} (W : ℕ → ℕ → ℝ) {wr : ℕ → ℝ}

/-- A one-axis array laid as a column reads, at (e, 0), the array at e. -/
theorem col_apply (x : IVec S524288 32) (p : S524288x1.Idx) : val_main_v12 (F := Ideal) x p = x (ix1 (p 0)) :=
  (val_main_v12_apply x p).trans (congrArg x (eq_ix1 _))

/-- The wrap-around of negative indices leaves node indices alone, so the source column is the source array. -/
theorem src_apply (h1 : InRange x1) (p : S524288x1.Idx) : val_main_v6 (F := Ideal) x1 p = x1 (ix1 (p 0)) := by
  have e : val_main_v5 (F := Ideal) x1 = x1 := funext fun i => by
    rw [val_main_v5_apply, val_main_v2_apply, val_main_v1_apply, val_main_c_apply, slt_zero_of_lt _ (h1 i),
      select_zero]
  exact (col_apply _ p).trans (congrFun e _)

theorem v0_real (xr : ℕ → ℕ → ℝ) : val_main_v0 (F := Ideal) (coe2 xr) (coe2 W) = coe2 (mm 512 xr W) :=
  funext fun i => (val_main_v0_apply _ _ i).trans (dot_coe 512 xr W _ _)

/-- The first aggregation, A · t. -/
theorem v13_real (h : val_main_v0 (F := Ideal) x0 x5 = coe2 t) (h1 : InRange x1) (h2 : InRange x2) :
    val_main_v13 (F := Ideal) x0 x1 x2 (coe1 wr) x5 = coe2 (mm 8192 (adj (natOf x1) (natOf x2) wr) t) :=
  spmm_real gather_S8192x256_S524288x1_S524288x256_1_0_n_n_0_1_1256_wf scatter_S8192x256_S524288x1_S524288x256_1_0_0_1_wf
    h (fun _ => Ideal.ofBits_zero_f32) h1 h2 (src_apply h1) (col_apply x2) fun _ => rfl

/-- The hidden layer: its positive part. -/
theorem v14_real (h : val_main_v13 (F := Ideal) x0 x1 x2 x3 x5 = coe2 (mm 8192 A t)) :
    val_main_v14 (F := Ideal) x0 x1 x2 x3 x5 = coe2 (hid A t) := funext fun i => by
  rw [val_main_v14_apply, h, val_main_call0_v0_apply, val_main_call0_cst_apply]
  exact (congrArg (max _) Ideal.ofBits_zero_f32).trans (coe_max_zero _)

/-- A head's projection of the hidden layer; the two heads run the same operations on W2 and on W3. -/
theorem v15_real (h : val_main_v14 (F := Ideal) x0 x1 x2 x3 x5 = coe2 t) :
    val_main_v15 (F := Ideal) x0 x1 x2 x3 x5 (coe2 W) = coe2 (mm 256 t W) := funext fun i => by
  rw [val_main_v15_apply, h]
  exact dot_coe 256 t W _ _

/-- A head's aggregation. -/
theorem v28_real (h : val_main_v15 (F := Ideal) x0 x1 x2 (coe1 wr) x5 x6 = coe2 t) (h1 : InRange x1) (h2 : InRange x2) :
    val_main_v28 (F := Ideal) x0 x1 x2 (coe1 wr) x5 x6 = coe2 (mm 8192 (adj (natOf x1) (natOf x2) wr) t) :=
  spmm_real gather_S8192x64_S524288x1_S524288x64_1_0_n_n_0_1_164_wf scatter_S8192x64_S524288x1_S524288x64_1_0_0_1_wf
    h (fun _ => Ideal.ofBits_zero_f32) h1 h2 (src_apply h1) (col_apply x2) fun _ => rfl

/-- The latent code, mean + eps · exp(log deviation): the heads are the two halves of one product with [W2 | W3]. -/
theorem v45_real {W2 W3 epsr : ℕ → ℕ → ℝ}
    (hm : val_main_v28 (F := Ideal) x0 x1 x2 x3 x5 x6 = coe2 (mm 8192 A (mm 256 t W2)))
    (hl : val_main_v42 (F := Ideal) x0 x1 x2 x3 x5 x7 = coe2 (mm 8192 A (mm 256 t W3))) :
    val_main_v45 (F := Ideal) x0 x1 x2 x3 (coe2 epsr) x5 x6 x7 = coe2 (lat A (mm 256 t (cat W2 W3)) epsr) :=
  funext fun i => by
  rw [val_main_v45_apply, val_main_v44_apply, val_main_v43_apply, hm, hl]
  refine (congrArg (_ + _ * ·) (Ideal.exp_coe _)).trans ?_
  rw [coe2_apply, coe2_apply, coe2_apply, ← EReal.coe_mul, ← EReal.coe_add]
  simp only [lat, mm, cat, if_pos (idx2_lt1 i), if_neg (Nat.not_lt.2 (Nat.le_add_left 64 _)), Nat.add_sub_cancel]

/-- The result: the Gram matrix of the latent code. -/
theorem v47_real {z : ℕ → ℕ → ℝ} (h : val_main_v45 (F := Ideal) x0 x1 x2 x3 x4 x5 x6 x7 = coe2 z) :
    val_main_v47 (F := Ideal) x0 x1 x2 x3 x4 x5 x6 x7 = coe2 (gram z) := funext fun i => by
  rw [val_main_v47_apply]
  simp only [val_main_v46_apply, h]
  exact dot_coe 64 z (fun k q => z q k) _ _

end Stages

/-- With real float arguments and node indices in the index arguments, the reference's result is the specified real array. -/
theorem result_real (m : (ℓ : Loc nD τ sig) → Buf (Elt Ideal) ℓ) (c : Dev nD)
    (xr epsr W1r W2r W3r : ℕ → ℕ → ℝ) (wr : ℕ → ℝ)
    (h0 : (m ((c.tc : Thread nD τ).loc main_arg0) : S8192x512.Idx → EReal) = coe2 xr)
    (h3 : (m ((c.tc : Thread nD τ).loc main_arg3) : S524288.Idx → EReal) = coe1 wr)
    (h4 : (m ((c.tc : Thread nD τ).loc main_arg4) : S8192x64.Idx → EReal) = coe2 epsr)
    (h5 : (m ((c.tc : Thread nD τ).loc main_arg5) : S512x256.Idx → EReal) = coe2 W1r)
    (h6 : (m ((c.tc : Thread nD τ).loc main_arg6) : S256x64.Idx → EReal) = coe2 W2r)
    (h7 : (m ((c.tc : Thread nD τ).loc main_arg7) : S256x64.Idx → EReal) = coe2 W3r)
    (hs : InRange (m ((c.tc : Thread nD τ).loc main_arg1))) (hd : InRange (m ((c.tc : Thread nD τ).loc main_arg2))) :
    (Cert.ReferenceIdeal.Value.res_main_v47 (F := Ideal) m c : S8192x8192.Idx → EReal)
      = coe2 (out xr (natOf (m ((c.tc : Thread nD τ).loc main_arg1))) (natOf (m ((c.tc : Thread nD τ).loc main_arg2)))
          wr epsr W1r W2r W3r) := by
  rw [val_main_v47_eq, h0, h3, h4, h5, h6, h7]
  have e14 := v14_real (v13_real (wr := wr) (v0_real W1r xr) hs hd)
  exact v47_real (v45_real (v28_real (v15_real W2r e14) hs hd) (v28_real (v15_real W3r e14) hs hd))

end Cert.ReferenceIdeal.Hand

end
-- ==== Proof.Hand.Pre.lean ====
import proofs.«400964_j13743895347838_3_alg».proof.Pre_finite_inputs
import proofs.«400964_j13743895347838_3_alg».proof.Proof.Gen.Pre_finite_inputs
import proofs.«400964_j13743895347838_3_alg».proof.Proof.Hand.Spec
import Idealize.ShloMosaic.Lib.ReduceAll
import Idealize.ShloMosaic.Lib.StableHlo.Predicate
import Idealize.ShloMosaic.Lib.ValueIdx
import Idealize.ShloMosaic.PureOps.Ideal

noncomputable section

namespace Cert.Pre.Hand

open Idealize.ShloMosaic Idealize.ShloMosaic.ValueIdx Idealize.ShloMosaic.StableHlo.Predicate
open Cert.Pre_finite_inputs Cert.Spec

instance : Subsingleton S_.Idx := ⟨fun a b => funext fun d => d.elim0⟩

/-- Only a real number has an absolute value strictly below the top element, which is what the pattern of +∞ denotes. -/
theorem real_of_abs_lt (x : EReal)
    (h : Ideal.cmp .olt (max x (-x)) (Ideal.ofBits .f32 0x7F800000#32) = 1#1) : ∃ r : ℝ, x = (r : EReal) := by
  rw [show Ideal.ofBits .f32 0x7F800000#32 = (⊤ : EReal) by simp [Ideal.ofBits, Ideal.ieee]] at h
  simp only [Ideal.cmp, ofBool_eq_one_iff, decide_eq_true_eq] at h
  induction x using EReal.rec with
  | coe r => exact ⟨r, rfl⟩
  | _ => simp at h

/-- A signed word in [0, 8192) has its sign bit clear, so its unsigned value is its signed one. -/
theorem toNat_lt_of_signed (w : BitVec 32)
    (h : IntOp.andi (IntOp.cmpi .sge w 0#32) (IntOp.cmpi .slt w 8192#32) = 1#1) : w.toNat < 8192 := by
  have hw := BitVec.toInt_eq_toNat_cond w
  have := w.isLt
  simp only [IntOp.andi_eq_one, IntOp.cmpi, ofBool_eq_one_iff, BitVec.slt, BitVec.sle, decide_eq_true_eq,
    show (0#32 : BitVec 32).toInt = 0 by decide, show (8192#32 : BitVec 32).toInt = 8192 by decide] at h
  split at hw <;> omega

/-- An array of real numbers is the reading of the function that takes each entry's real value (0 off the array). -/
theorem exists_coe2 {a b : ℕ} {x : (⟨2, ![a, b]⟩ : Shape).Idx → EReal} (h : ∀ i, ∃ r : ℝ, x i = (r : EReal)) :
    ∃ f, x = coe2 f :=
  ⟨fun p q => if hpq : p < a ∧ q < b then (x (ix2 ⟨p, hpq.1⟩ ⟨q, hpq.2⟩)).toReal else 0, funext fun i => by
    obtain ⟨r, hr⟩ := h i
    rw [coe2_apply, dif_pos ⟨idx2_lt0 i, idx2_lt1 i⟩,
      show ix2 ⟨(i 0).val, idx2_lt0 i⟩ ⟨(i 1).val, idx2_lt1 i⟩ = i from (eq_ix2 i).symm, hr, EReal.toReal_coe]⟩

theorem exists_coe1 {a : ℕ} {x : (⟨1, ![a]⟩ : Shape).Idx → EReal} (h : ∀ i, ∃ r : ℝ, x i = (r : EReal)) :
    ∃ f, x = coe1 f :=
  ⟨fun p => if hp : p < a then (x (ix1 ⟨p, hp⟩)).toReal else 0, funext fun i => by
    obtain ⟨r, hr⟩ := h i
    have hi : (i 0).val < a := (i 0).isLt
    rw [coe1_apply, dif_pos hi, show ix1 ⟨(i 0).val, hi⟩ = i from (eq_ix1 i).symm, hr, EReal.toReal_coe]⟩

/-- The predicate is a conjunction of eight tests, each over all entries of one input: a true one held at each entry. -/
theorem decode [Cert.Pre_finite_inputs.Facts]
    (a0 : S8192x512.Idx → EReal) (a1 a2 : S524288.Idx → BitVec 32) (a3 : S524288.Idx → EReal) (a4 : S8192x64.Idx → EReal)
    (a5 : S512x256.Idx → EReal) (a6 a7 : S256x64.Idx → EReal)
    (h : Cert.Pre_finite_inputs.fn (F := Ideal) a0 a1 a2 a3 a4 a5 a6 a7 = fun _ => 1#1) :
    (∃ r, a0 = coe2 r) ∧ InRange a1 ∧ InRange a2 ∧ (∃ r, a3 = coe1 r) ∧ (∃ r, a4 = coe2 r)
      ∧ (∃ r, a5 = coe2 r) ∧ (∃ r, a6 = coe2 r) ∧ (∃ r, a7 = coe2 r) := by
  have e := congrFun h ix0
  unfold Cert.Pre_finite_inputs.fn Cert.Pre_finite_inputs.fn_part1 Cert.Pre_finite_inputs.fn_part2 at e
  simp only [andi, IntOp.andi_eq_one] at e
  obtain ⟨⟨⟨⟨⟨⟨⟨e0, e3⟩, e4⟩, e5⟩, e6⟩, e7⟩, e1⟩, e2⟩ := e
  exact ⟨exists_coe2 fun i => real_of_abs_lt _ (Host.reduce_andi_all _ _ _ _ ix0 e0 i),
    fun i => toNat_lt_of_signed _ (Host.reduce_andi_all _ _ _ _ ix0 e1 i),
    fun i => toNat_lt_of_signed _ (Host.reduce_andi_all _ _ _ _ ix0 e2 i),
    exists_coe1 fun i => real_of_abs_lt _ (Host.reduce_andi_all _ _ _ _ ix0 e3 i),
    exists_coe2 fun i => real_of_abs_lt _ (Host.reduce_andi_all _ _ _ _ ix0 e4 i),
    exists_coe2 fun i => real_of_abs_lt _ (Host.reduce_andi_all _ _ _ _ ix0 e5 i),
    exists_coe2 fun i => real_of_abs_lt _ (Host.reduce_andi_all _ _ _ _ ix0 e6 i),
    exists_coe2 fun i => real_of_abs_lt _ (Host.reduce_andi_all _ _ _ _ ix0 e7 i)⟩

end Cert.Pre.Hand

end
-- ==== Proof.Hand.Claims.lean ====
import proofs.«400964_j13743895347838_3_alg».proof.Defs
import proofs.«400964_j13743895347838_3_alg».proof.Proof.Gen.Kernel
import proofs.«400964_j13743895347838_3_alg».proof.Proof.Gen.KernelIdeal
import proofs.«400964_j13743895347838_3_alg».proof.Proof.Gen.ReferenceIdeal
import proofs.«400964_j13743895347838_3_alg».proof.Proof.Gen.Pre_finite_inputs
import proofs.«400964_j13743895347838_3_alg».proof.Proof.Hand.KI.Final
import proofs.«400964_j13743895347838_3_alg».proof.Proof.Hand.K.Run
import proofs.«400964_j13743895347838_3_alg».proof.Proof.Hand.Ref
import proofs.«400964_j13743895347838_3_alg».proof.Proof.Hand.Pre

noncomputable section
namespace Cert.Proof.Hand

open Idealize.ShloMosaic Idealize.SL.Sem

/-- Each program's run, with the result forgotten. -/
theorem frame_k : Cert.frame_Kernel := fun m ρ _ =>
  (θ_run Cert.Kernel.defs _ _).mono (fun _ h c => (h c).2) (Cert.Kernel.Hand.Run.run_result m ρ)

theorem frame_ki : Cert.frame_KernelIdeal := fun m ρ _ =>
  (θ_run Cert.KernelIdeal.defs _ _).mono (fun _ h c => (h c).2) (Cert.KernelIdeal.Hand.Run.run_result m ρ)

theorem frame_ri : Cert.frame_ReferenceIdeal := fun m ρ _ =>
  (θ_run Cert.ReferenceIdeal.defs _ _).mono (fun _ h c => (h c).2) (Cert.ReferenceIdeal.Value.run (F := Ideal) m ρ)

/-- Each rewrite replaces a narrowing followed by the widening back by its operand: the identity on exact values. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16, IdealRules.truncf_extf.statement _ .f32 .bf16,
    IdealRules.truncf_extf.statement _ .f32 .bf16, IdealRules.truncf_extf.statement _ .f32 .bf16⟩

/-- Under the precondition the float arguments are real arrays and the index arguments node indices; both programs then end with the Gram matrix of the latent code of those arrays. -/
theorem algebraic : Cert.algebraic_KernelIdeal_ReferenceIdeal := by
  intro m ρ m' ρ' hpre hagree
  refine ⟨fun c => (Cert.KernelIdeal.Hand.R3.dat (F := Ideal) (Cert.KernelIdeal.Hand.Run.V5 m ρ) c).arrAt 4 Cert.KernelIdeal.cfg3.N,
    Cert.KernelIdeal.Hand.Run.run_result m ρ, ?_⟩
  refine (θ_run Cert.ReferenceIdeal.defs _ _).mono (fun _ h c => ⟨(h c).1.trans ?_, (h c).2⟩)
    (Cert.ReferenceIdeal.Value.run (F := Ideal) m' ρ')
  obtain ⟨⟨xr, h0⟩, hs, hd, ⟨wr, h3⟩, ⟨epsr, h4⟩, ⟨W1r, h5⟩, ⟨W2r, h6⟩, ⟨W3r, h7⟩⟩ :=
    Cert.Pre.Hand.decode _ _ _ _ _ _ _ _ (hpre c)
  obtain ⟨a0, a1, a2, a3, a4, a5, a6, a7⟩ := hagree c
  have hr := Cert.ReferenceIdeal.Hand.result_real m' c xr epsr W1r W2r W3r wr
    (a0.trans h0) (a3.trans h3) (a4.trans h4) (a5.trans h5) (a6.trans h6) (a7.trans h7) (a1 ▸ hs) (a2 ▸ hd)
  rw [a1, a2] at hr
  exact hr.trans (Cert.KernelIdeal.Hand.Final.result_real ρ ⟨h0, h3, h4, h5, h6, h7, hs, hd⟩).symm

end Cert.Proof.Hand

end
-- ==== Proof.lean ====
/-
  A graph auto-encoder on 8192 nodes.  With A the weighted adjacency matrix of the edge list, the result is the Gram
  matrix z · zᵀ of the latent code z = mean + eps · exp(logstd), where [mean | logstd] = A · (relu(A · (x · W1)) · [W2 | W3]).
  The kernel program takes every matrix product as three products of leading parts and remainders; with exact
  arithmetic a remainder is zero, so each triple is the product itself and the program computes what the reference does.
-/
import proofs.«400964_j13743895347838_3_alg».proof.Defs
import proofs.«400964_j13743895347838_3_alg».proof.Proof.Hand.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Hand.frame_k, Cert.Proof.Hand.frame_ki, Cert.Proof.Hand.frame_ri, Cert.Proof.Hand.preserves, Cert.Proof.Hand.algebraic⟩

end Cert.Proof

end
